-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S_ : Shape := ⟨0, ![]⟩

class Facts : Prop where
  bcast_S_S32000x2048 : S_.BroadcastsInDim S32000x2048 (![] : Fin 0 → Fin S32000x2048.rank)
  reducesTo_S32000x2048_S_d0_1 : S32000x2048.ReducesTo [0, 1] S_
  h_S_ : 0 < S_.numel
  bcast_S_S8x512x2048 : S_.BroadcastsInDim S8x512x2048 (![] : Fin 0 → Fin S8x512x2048.rank)
  reducesTo_S8x512x2048_S_d0_1_2 : S8x512x2048.ReducesTo [0, 1, 2] S_
  bcast_S_S32000 : S_.BroadcastsInDim S32000 (![] : Fin 0 → Fin S32000.rank)
  reducesTo_S32000_S_d0 : S32000.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg2 : IVec S8x512 32) (main_v13 : IVec S_ 1) (main_v15 : IVec S8x512 1) (main_c_5 : IVec S_ 32) : IVec S_ 1 :=
  let main_v16 : IVec S8x512 32 := broadcastInDim S8x512 ![] bcast_S_S8x512 main_c_5
  let main_v17 : IVec S8x512 1 := cmpi .sge main_arg2 main_v16
  let main_c_6 : IVec S_ 32 := constantI S_ 32 32000#32
  let main_v18 : IVec S8x512 32 := broadcastInDim S8x512 ![] bcast_S_S8x512 main_c_6
  let main_v19 : IVec S8x512 1 := cmpi .slt main_arg2 main_v18
  let main_v20 : IVec S8x512 1 := andi main_v17 main_v19
  let main_v21 : IVec S8x512 1 := ori main_v15 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v13 main_v22
  main_v23

def fn {F : FTy → Type} [FloatOps F] (main_arg0 : FVec F S32000x2048 .f32) (main_arg1 : FVec F S8x512x2048 .f32) (main_arg2 : IVec S8x512 32) (main_arg3 : FVec F S32000 .f32) : IVec S_ 1 :=
  let main_v0 : FVec F S32000x2048 .f32 := Host.absf main_arg0
  let main_cst : FVec F S_ .f32 := constant S_ .f32 0x7F800000#32
  let main_v1 : FVec F S32000x2048 .f32 := broadcastInDim S32000x2048 ![] bcast_S_S32000x2048 main_cst
  let main_v2 : IVec S32000x2048 1 := cmpf .olt main_v0 main_v1
  let main_c : IVec S_ 1 := constantI S_ 1 1#1
  let main_v3 : IVec S_ 1 := (fun x v => Host.reduce IntOp.andi x v reducesTo_S32000x2048_S_d0_1 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_c_4 : IVec S_ 32 := constantI S_ 32 4294967196#32
  let main_v14 : IVec S8x512 32 := broadcastInDim S8x512 ![] bcast_S_S8x512 main_c_4
  let main_v15 : IVec S8x512 1 := cmpi .eq main_arg2 main_v14
  let main_c_5 : IVec S_ 32 := constantI S_ 32 0#32
  fn_part1 (F := F) main_arg2 main_v13 main_v15 main_c_5
-- ==== Kernel.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S1x32000 : Shape := ⟨2, ![1, 32000]⟩
abbrev S1024x2048 : Shape := ⟨2, ![1024, 2048]⟩
abbrev S640x2048 : Shape := ⟨2, ![640, 2048]⟩
abbrev S1x640 : Shape := ⟨2, ![1, 640]⟩
abbrev S1024x1 : Shape := ⟨2, ![1024, 1]⟩
abbrev S1024x640 : Shape := ⟨2, ![1024, 640]⟩
abbrev S1024 : Shape := ⟨1, ![1024]⟩
abbrev S8 : Shape := ⟨1, ![8]⟩
abbrev S4 : Shape := ⟨1, ![4]⟩
abbrev S4x512 : Shape := ⟨2, ![4, 512]⟩

abbrev nBuf : Space → Nat
  | .hbm => 97
  | .vmem => 15
  | .smem => 0
  | _ => 0

abbrev bufTy : (tb : Table) → Fin (tcTables nBuf tb) → BufTy
  | .hbm, ⟨0, _⟩ => ⟨S32000x2048, .f32⟩
  | .hbm, ⟨1, _⟩ => ⟨S8x512x2048, .f32⟩
  | .hbm, ⟨2, _⟩ => ⟨S8x512, .i32⟩
  | .hbm, ⟨3, _⟩ => ⟨S32000, .f32⟩
  | .hbm, ⟨4, _⟩ => ⟨S_, .i32⟩
  | .hbm, ⟨5, _⟩ => ⟨S8x512, .i32⟩
  | .hbm, ⟨6, _⟩ => ⟨S8x512, .i1⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096, .f32⟩
  | .hbm, ⟨15, _⟩ => ⟨S4096x1, .f32⟩
  | .hbm, ⟨16, _⟩ => ⟨S4096x2048, .f32⟩
  | .hbm, ⟨17, _⟩ => ⟨S4096x2048, .bf16⟩
  | .hbm, ⟨18, _⟩ => ⟨S32000x2048, .bf16⟩
  | .hbm, ⟨19, _⟩ => ⟨S1x32000, .f32⟩
  | .hbm, ⟨20, _⟩ => ⟨S4096x1, .f32⟩
  | .hbm, ⟨21, _⟩ => ⟨S8x512, .f32⟩
  | .hbm, ⟨22, _⟩ => ⟨S8x512, .i1⟩
  | .hbm, ⟨23, _⟩ => ⟨S8x512, .i32⟩
  | .hbm, ⟨24, _⟩ => ⟨S_, .i32⟩
  | .hbm, ⟨25, _⟩ => ⟨S8, .i32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S4, .f32⟩
  | .hbm, ⟨31, _⟩ => ⟨S4, .f32⟩
  | .hbm, ⟨32, _⟩ => ⟨S4x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x512, .i1⟩
  | .hbm, ⟨37, _⟩ => ⟨S4x512, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .f32⟩
  | .hbm, ⟨42, _⟩ => ⟨S4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S_, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .i1⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S4, .i1⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S_, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S640x2048, .bf16⟩
  | .local _ .vmem, ⟨3, _⟩ => ⟨S640x2048, .bf16⟩
  | .local _ .vmem, ⟨4, _⟩ => ⟨S1x640, .f32⟩
  | .local _ .vmem, ⟨5, _⟩ => ⟨S1x640, .f32⟩
  | .local _ .vmem, ⟨6, _⟩ => ⟨S1024x1, .i32⟩
  | .local _ .vmem, ⟨7, _⟩ => ⟨S1024x1, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S32000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_call1_v0 : Ref sig .tc := ⟨.hbm, 49, rfl⟩
abbrev main_call1_call0_cst : Ref sig .tc := ⟨.hbm, 50, rfl⟩
abbrev main_call1_call0_v0 : Ref sig .tc := ⟨.hbm, 51, rfl⟩
abbrev main_call1_call0_v1 : Ref sig .tc := ⟨.hbm, 52, rfl⟩
abbrev main_call1_call0_v2 : Ref sig .tc := ⟨.hbm, 53, rfl⟩
abbrev main_call1_call0_v3 : Ref sig .tc := ⟨.hbm, 54, rfl⟩
abbrev main_call1_call0_v4 : Ref sig .tc := ⟨.hbm, 55, rfl⟩
abbrev main_call1_call0_v5 : Ref sig .tc := ⟨.hbm, 56, rfl⟩
abbrev main_call1_call0_v6 : Ref sig .tc := ⟨.hbm, 57, rfl⟩
abbrev main_call1_call0_v7 : Ref sig .tc := ⟨.hbm, 58, rfl⟩
abbrev main_call1_call0_v8 : Ref sig .tc := ⟨.hbm, 59, rfl⟩
abbrev main_call1_call0_v9 : Ref sig .tc := ⟨.hbm, 60, rfl⟩
abbrev main_call1_call0_v10 : Ref sig .tc := ⟨.hbm, 61, rfl⟩
abbrev main_call1_call0_v11 : Ref sig .tc := ⟨.hbm, 62, rfl⟩
abbrev main_call1_v1 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_call2_v0 : Ref sig .tc := ⟨.hbm, 70, rfl⟩
abbrev main_call2_call0_cst : Ref sig .tc := ⟨.hbm, 71, rfl⟩
abbrev main_call2_call0_v0 : Ref sig .tc := ⟨.hbm, 72, rfl⟩
abbrev main_call2_call0_v1 : Ref sig .tc := ⟨.hbm, 73, rfl⟩
abbrev main_call2_call0_v2 : Ref sig .tc := ⟨.hbm, 74, rfl⟩
abbrev main_call2_call0_v3 : Ref sig .tc := ⟨.hbm, 75, rfl⟩
abbrev main_call2_call0_v4 : Ref sig .tc := ⟨.hbm, 76, rfl⟩
abbrev main_call2_call0_v5 : Ref sig .tc := ⟨.hbm, 77, rfl⟩
abbrev main_call2_call0_v6 : Ref sig .tc := ⟨.hbm, 78, rfl⟩
abbrev main_call2_call0_v7 : Ref sig .tc := ⟨.hbm, 79, rfl⟩
abbrev main_call2_call0_v8 : Ref sig .tc := ⟨.hbm, 80, rfl⟩
abbrev main_call2_call0_v9 : Ref sig .tc := ⟨.hbm, 81, rfl⟩
abbrev main_call2_call0_v10 : Ref sig .tc := ⟨.hbm, 82, rfl⟩
abbrev main_call2_call0_v11 : Ref sig .tc := ⟨.hbm, 83, rfl⟩
abbrev main_call2_v1 : Ref sig .tc := ⟨.hbm, 84, rfl⟩
abbrev main_v40 : Ref sig .tc := ⟨.hbm, 85, rfl⟩
abbrev main_cst_7 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_8 : Ref sig .tc := ⟨.hbm, 90, rfl⟩
abbrev main_v44 : Ref sig .tc := ⟨.hbm, 91, rfl⟩
abbrev main_cst_9 : Ref sig .tc := ⟨.hbm, 92, rfl⟩
abbrev main_v45 : Ref sig .tc := ⟨.hbm, 93, rfl⟩
abbrev main_cst_10 : Ref sig .tc := ⟨.hbm, 94, rfl⟩
abbrev main_v46 : Ref sig .tc := ⟨.hbm, 95, rfl⟩
abbrev main_v47 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v49 : BitVec 1 := Scalar.cmpi .eq arg1 c49_i32
  let v50 : BitVec 32 := Scalar.extui v49
  let c0_i32_24 : BitVec 32 := 0#32
  let v51 : BitVec 1 := Scalar.cmpi .ne v50 c0_i32_24
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S8x512 : S_.BroadcastsInDim S8x512 (![] : Fin 0 → Fin S8x512.rank)
  shapeCasts_S8x512_S4096 : S8x512.ShapeCasts S4096
  bcast_S_S4096 : S_.BroadcastsInDim S4096 (![] : Fin 0 → Fin S4096.rank)
  shapeCasts_S4096_S4096x1 : S4096.ShapeCasts S4096x1
  shapeCasts_S8x512x2048_S4096x2048 : S8x512x2048.ShapeCasts S4096x2048
  bitsLt_bf16_f32 : FTy.bits .bf16 < FTy.bits .f32
  shapeCasts_S32000_S1x32000 : S32000.ShapeCasts S1x32000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S640x2048_S640x2048_0_0 : ∀ a, (![0, 0] : Fin 2 → Nat) a + S640x2048.size a ≤ S640x2048.size a
  h_S640x2048 : 0 < S640x2048.numel
  shapeCasts_S640x2048_S640x2048 : S640x2048.ShapeCasts S640x2048
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S1024x640 : S1x640.Broadcasts S1024x640
  reduces_S1024x640_S1024 : S1024x640.Reduces [1] S1024
  shapeCasts_S1024_S1024x1 : S1024.ShapeCasts S1024x1
  broadcasts_S1024x1_S1024x640 : S1024x1.Broadcasts S1024x640
  iota_S1024x640_d1_w32 : S1024x640.Iotas .tc 32 [1]
  shapeCasts_S4096x1_S8x512 : S4096x1.ShapeCasts S8x512
  shapeCasts_S4096_S8x512 : S4096.ShapeCasts S8x512
  natLt_1_32 : 1 < 32
  reducesTo_S8x512_S8_d1 : S8x512.ReducesTo [1] S8
  h_S_ : 0 < S_.numel
  slices_S8_S4_0 : S8.Slices ![0] S4
  slices_S8_S4_4 : S8.Slices ![4] S4
  slices_S8x512_S4x512_0_0 : S8x512.Slices ![0, 0] S4x512
  reducesTo_S4x512_S_d0_1 : S4x512.ReducesTo [0, 1] S_
  bcast_S_S4 : S_.BroadcastsInDim S4 (![] : Fin 0 → Fin S4.rank)
  reducesTo_S4_S_d0 : S4.ReducesTo [0] S_
  dot_S1024x2048_S640x2048_S1024x640_1_1_0_0_n_n_wf : DotDims.WF S1024x2048 S640x2048 S1024x640 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .bf16 = 32 ∨ (Rect.block (s := S32000x2048) S640x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x32000.size a
  hwx0_2 : ∀ i : grid0.Coords, EltTy.bits .f32 = 32 ∨ (Rect.block (s := S1x32000) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .i32 = 32 ∨ (Rect.block (s := S4096x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def dot_S1024x2048_S640x2048_S1024x640_1_1_0_0_n_n : DotDims S1024x2048 S640x2048 S1024x640 where
  lhsContracting := [1]
  rhsContracting := [1]
  lhsNonContracting := [0]
  rhsNonContracting := [0]
  lhsBatch := []
  rhsBatch := []
  wf := dot_S1024x2048_S640x2048_S1024x640_1_1_0_0_n_n_wf

abbrev win0_0 : Pipeline.Window sig grid0 :=
  Pipeline.Window.ofSpec (Memref.whole main_v9) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32000x2048 : Shape := ⟨2, ![32000, 2048]⟩
abbrev S8x512x2048 : Shape := ⟨3, ![8, 512, 2048]⟩
abbrev S8x512 : Shape := ⟨2, ![8, 512]⟩
abbrev S32000 : Shape := ⟨1, ![32000]⟩
abbrev S8x512x32000 : Shape := ⟨3, ![8, 512, 32000]⟩
abbrev S1x1x32000 : Shape := ⟨3, ![1, 1, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x512 : Shape := ⟨2, ![4, 512]⟩

abbrev nBuf : Space → Nat
  | .hbm => 130
  | .vmem => 0
  | .smem => 0
  | _ => 0

abbrev hbmTy0_0 (i : Nat) : BufTy := match i % 128 with
  | 0 => ⟨S32000x2048, .f32⟩
  | 1 => ⟨S8x512x2048, .f32⟩
  | 2 => ⟨S8x512, .i32⟩
  | 3 => ⟨S32000, .f32⟩
  | 4 => ⟨S8x512x32000, .f32⟩
  | 5 => ⟨S1x1x32000, .f32⟩
  | 6 => ⟨S8x512x32000, .f32⟩
  | 7 => ⟨S8x512x32000, .f32⟩
  | 8 => ⟨S_, .f32⟩
  | 9 => ⟨S8x512, .f32⟩
  | 10 => ⟨S_, .f32⟩
  | 11 => ⟨S8x512, .f32⟩
  | 12 => ⟨S8x512, .f32⟩
  | 13 => ⟨S8x512x1, .f32⟩
  | 14 => ⟨S8x512x32000, .f32⟩
  | 15 => ⟨S8x512x32000, .f32⟩
  | 16 => ⟨S8x512x32000, .f32⟩
  | 17 => ⟨S_, .f32⟩
  | 18 => ⟨S8x512, .f32⟩
  | 19 => ⟨S8x512x1, .f32⟩
  | 20 => ⟨S8x512x1, .f32⟩
  | 21 => ⟨S8x512x32000, .f32⟩
  | 22 => ⟨S8x512x32000, .f32⟩
  | 23 => ⟨S_, .i32⟩
  | 24 => ⟨S8x512, .i32⟩
  | 25 => ⟨S8x512, .i1⟩
  | 26 => ⟨S_, .i32⟩
  | 27 => ⟨S_, .i32⟩
  | 28 => ⟨S8x512, .i32⟩
  | 29 => ⟨S8x512, .i32⟩
  | 30 => ⟨S8x512x1, .i32⟩
  | 31 => ⟨S_, .i32⟩
  | 32 => ⟨S8x512x1, .i32⟩
  | 33 => ⟨S8x512x1, .i1⟩
  | 34 => ⟨S_, .i32⟩
  | 35 => ⟨S8x512x1, .i32⟩
  | 36 => ⟨S8x512x1, .i32⟩
  | 37 => ⟨S8x512x1, .i32⟩
  | 38 => ⟨S8x512x1x1, .i32⟩
  | 39 => ⟨S1, .i32⟩
  | 40 => ⟨S_, .i32⟩
  | 41 => ⟨S8x512x1x1, .i32⟩
  | 42 => ⟨S8x512x1x1, .i1⟩
  | 43 => ⟨S1x1x1x1, .i32⟩
  | 44 => ⟨S8x512x1x1, .i32⟩
  | 45 => ⟨S8x512x1x1, .i1⟩
  | 46 => ⟨S8x512x1x1, .i1⟩
  | 47 => ⟨S_, .i1⟩
  | 48 => ⟨S8x512x1, .i1⟩
  | 49 => ⟨S8x512x1, .f32⟩
  | 50 => ⟨S_, .f32⟩
  | 51 => ⟨S8x512x1, .f32⟩
  | 52 => ⟨S8x512x1, .f32⟩
  | 53 => ⟨S8x512, .f32⟩
  | 54 => ⟨S8x512, .f32⟩
  | 55 => ⟨S8x512, .f32⟩
  | 56 => ⟨S_, .f32⟩
  | 57 => ⟨S8, .f32⟩
  | 58 => ⟨S8x512, .i32⟩
  | 59 => ⟨S_, .i32⟩
  | 60 => ⟨S8, .i32⟩
  | 61 => ⟨S8, .f32⟩
  | 62 => ⟨S8, .f32⟩
  | 63 => ⟨S4, .f32⟩
  | 64 => ⟨S4, .f32⟩
  | 65 => ⟨S4x512, .f32⟩
  | 66 => ⟨S_, .f32⟩
  | 67 => ⟨S_, .f32⟩
  | 68 => ⟨S_, .f32⟩
  | 69 => ⟨S4x512, .i1⟩
  | 70 => ⟨S4x512, .i32⟩
  | 71 => ⟨S_, .i32⟩
  | 72 => ⟨S_, .i32⟩
  | 73 => ⟨S_, .f32⟩
  | 74 => ⟨S_, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S4, .f32⟩
  | 83 => ⟨S_, .f32⟩
  | 84 => ⟨S4, .f32⟩
  | 85 => ⟨S4, .f32⟩
  | 86 => ⟨S4, .f32⟩
  | 87 => ⟨S4, .f32⟩
  | 88 => ⟨S4, .i1⟩
  | 89 => ⟨S4, .f32⟩
  | 90 => ⟨S4, .f32⟩
  | 91 => ⟨S4, .f32⟩
  | 92 => ⟨S4, .f32⟩
  | 93 => ⟨S4, .f32⟩
  | 94 => ⟨S4, .f32⟩
  | 95 => ⟨S4, .f32⟩
  | 96 => ⟨S4, .f32⟩
  | 97 => ⟨S4, .f32⟩
  | 98 => ⟨S4, .f32⟩
  | 99 => ⟨S_, .f32⟩
  | 100 => ⟨S4, .f32⟩
  | 101 => ⟨S4, .f32⟩
  | 102 => ⟨S4, .f32⟩
  | 103 => ⟨S4, .f32⟩
  | 104 => ⟨S_, .f32⟩
  | 105 => ⟨S4, .f32⟩
  | 106 => ⟨S4, .f32⟩
  | 107 => ⟨S4, .f32⟩
  | 108 => ⟨S4, .f32⟩
  | 109 => ⟨S4, .i1⟩
  | 110 => ⟨S4, .f32⟩
  | 111 => ⟨S4, .f32⟩
  | 112 => ⟨S4, .f32⟩
  | 113 => ⟨S4, .f32⟩
  | 114 => ⟨S4, .f32⟩
  | 115 => ⟨S4, .f32⟩
  | 116 => ⟨S4, .f32⟩
  | 117 => ⟨S4, .f32⟩
  | 118 => ⟨S4, .f32⟩
  | 119 => ⟨S_, .f32⟩
  | 120 => ⟨S4, .f32⟩
  | 121 => ⟨S4, .f32⟩
  | 122 => ⟨S4, .f32⟩
  | 123 => ⟨S_, .f32⟩
  | 124 => ⟨S_, .f32⟩
  | 125 => ⟨S_, .f32⟩
  | 126 => ⟨S_, .f32⟩
  | 127 => ⟨S_, .f32⟩
  | _ => ⟨S32000x2048, .f32⟩

abbrev hbmTy0_1 (i : Nat) : BufTy := match i % 128 with
  | 0 => ⟨S_, .f32⟩
  | 1 => ⟨S_, .f32⟩
  | _ => ⟨S32000x2048, .f32⟩

abbrev hbmTy (i : Nat) : BufTy := match i / 128 with
  | 0 => hbmTy0_0 i
  | 1 => hbmTy0_1 i
  | _ => ⟨S32000x2048, .f32⟩

abbrev bufTy : (tb : Table) → Fin (tcTables nBuf tb) → BufTy
  | .hbm, ⟨i, _⟩ => hbmTy i
  | _, _ => ⟨S32000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_v7 : Ref sig .tc := ⟨.hbm, 29, rfl⟩
abbrev main_v8 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst : Ref sig .tc := ⟨.hbm, 56, rfl⟩
abbrev main_v13 : Ref sig .tc := ⟨.hbm, 57, rfl⟩
abbrev main_v14 : Ref sig .tc := ⟨.hbm, 58, rfl⟩
abbrev main_c_1 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_3 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_4 : Ref sig .tc := ⟨.hbm, 76, rfl⟩
abbrev main_v29 : Ref sig .tc := ⟨.hbm, 77, rfl⟩
abbrev main_v30 : Ref sig .tc := ⟨.hbm, 78, rfl⟩
abbrev main_cst_5 : Ref sig .tc := ⟨.hbm, 79, rfl⟩
abbrev main_v31 : Ref sig .tc := ⟨.hbm, 80, rfl⟩
abbrev main_v32 : Ref sig .tc := ⟨.hbm, 81, rfl⟩
abbrev main_call3_v0 : Ref sig .tc := ⟨.hbm, 82, rfl⟩
abbrev main_call3_call0_cst : Ref sig .tc := ⟨.hbm, 83, rfl⟩
abbrev main_call3_call0_v0 : Ref sig .tc := ⟨.hbm, 84, rfl⟩
abbrev main_call3_call0_v1 : Ref sig .tc := ⟨.hbm, 85, rfl⟩
abbrev main_call3_call0_v2 : Ref sig .tc := ⟨.hbm, 86, rfl⟩
abbrev main_call3_call0_v3 : Ref sig .tc := ⟨.hbm, 87, rfl⟩
abbrev main_call3_call0_v4 : Ref sig .tc := ⟨.hbm, 88, rfl⟩
abbrev main_call3_call0_v5 : Ref sig .tc := ⟨.hbm, 89, rfl⟩
abbrev main_call3_call0_v6 : Ref sig .tc := ⟨.hbm, 90, rfl⟩
abbrev main_call3_call0_v7 : Ref sig .tc := ⟨.hbm, 91, rfl⟩
abbrev main_call3_call0_v8 : Ref sig .tc := ⟨.hbm, 92, rfl⟩
abbrev main_call3_call0_v9 : Ref sig .tc := ⟨.hbm, 93, rfl⟩
abbrev main_call3_call0_v10 : Ref sig .tc := ⟨.hbm, 94, rfl⟩
abbrev main_call3_call0_v11 : Ref sig .tc := ⟨.hbm, 95, rfl⟩
abbrev main_call3_v1 : Ref sig .tc := ⟨.hbm, 96, rfl⟩
abbrev main_v33 : Ref sig .tc := ⟨.hbm, 97, rfl⟩
abbrev main_v34 : Ref sig .tc := ⟨.hbm, 98, rfl⟩
abbrev main_cst_6 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_call4_v0 : Ref sig .tc := ⟨.hbm, 103, rfl⟩
abbrev main_call4_call0_cst : Ref sig .tc := ⟨.hbm, 104, rfl⟩
abbrev main_call4_call0_v0 : Ref sig .tc := ⟨.hbm, 105, rfl⟩
abbrev main_call4_call0_v1 : Ref sig .tc := ⟨.hbm, 106, rfl⟩
abbrev main_call4_call0_v2 : Ref sig .tc := ⟨.hbm, 107, rfl⟩
abbrev main_call4_call0_v3 : Ref sig .tc := ⟨.hbm, 108, rfl⟩
abbrev main_call4_call0_v4 : Ref sig .tc := ⟨.hbm, 109, rfl⟩
abbrev main_call4_call0_v5 : Ref sig .tc := ⟨.hbm, 110, rfl⟩
abbrev main_call4_call0_v6 : Ref sig .tc := ⟨.hbm, 111, rfl⟩
abbrev main_call4_call0_v7 : Ref sig .tc := ⟨.hbm, 112, rfl⟩
abbrev main_call4_call0_v8 : Ref sig .tc := ⟨.hbm, 113, rfl⟩
abbrev main_call4_call0_v9 : Ref sig .tc := ⟨.hbm, 114, rfl⟩
abbrev main_call4_call0_v10 : Ref sig .tc := ⟨.hbm, 115, rfl⟩
abbrev main_call4_call0_v11 : Ref sig .tc := ⟨.hbm, 116, rfl⟩
abbrev main_call4_v1 : Ref sig .tc := ⟨.hbm, 117, rfl⟩
abbrev main_v38 : Ref sig .tc := ⟨.hbm, 118, rfl⟩
abbrev main_cst_7 : Ref sig .tc := ⟨.hbm, 119, rfl⟩
abbrev main_v39 : Ref sig .tc := ⟨.hbm, 120, rfl⟩
abbrev main_v40 : Ref sig .tc := ⟨.hbm, 121, rfl⟩
abbrev main_v41 : Ref sig .tc := ⟨.hbm, 122, rfl⟩
abbrev main_cst_8 : Ref sig .tc := ⟨.hbm, 123, rfl⟩
abbrev main_v42 : Ref sig .tc := ⟨.hbm, 124, rfl⟩
abbrev main_cst_9 : Ref sig .tc := ⟨.hbm, 125, rfl⟩
abbrev main_v43 : Ref sig .tc := ⟨.hbm, 126, rfl⟩
abbrev main_cst_10 : Ref sig .tc := ⟨.hbm, 127, rfl⟩
abbrev main_v44 : Ref sig .tc := ⟨.hbm, 128, rfl⟩
abbrev main_v45 : Ref sig .tc := ⟨.hbm, 129, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S8x512x32000_0_1_2 : S1x1x32000.BroadcastsInDim S8x512x32000 (![0, 1, 2] : Fin 3 → Fin S8x512x32000.rank)
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  natLt_1_32 : 1 < 32
  slices_S8_S4_0 : S8.Slices ![0] S4
  slices_S8_S4_4 : S8.Slices ![4] S4
  slices_S8x512_S4x512_0_0 : S8x512.Slices ![0, 0] S4x512
  reducesTo_S4x512_S_d0_1 : S4x512.ReducesTo [0, 1] S_
  bcast_S_S4 : S_.BroadcastsInDim S4 (![] : Fin 0 → Fin S4.rank)
  reducesTo_S4_S_d0 : S4.ReducesTo [0] S_
  dot_S8x512x2048_S32000x2048_S8x512x32000_2_1_01_0_n_n_wf : DotDims.WF S8x512x2048 S32000x2048 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x2048_S32000x2048_S8x512x32000_2_1_01_0_n_n : DotDims S8x512x2048 S32000x2048 S8x512x32000 where
  lhsContracting := [2]
  rhsContracting := [1]
  lhsNonContracting := [0, 1]
  rhsNonContracting := [0]
  lhsBatch := []
  rhsBatch := []
  wf := dot_S8x512x2048_S32000x2048_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.KKit.lean ====
import proofs.«419790_j22101901705594_3_alg».proof.Proof.Gen.Kernel.Launch
import proofs.«419790_j22101901705594_3_alg».proof.Proof.Gen.Kernel.Skeleton
import proofs.«419790_j22101901705594_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev headOps : List (List (HloOp τ sig (Elt F))) := [hostOps0, hostOps0_1, hostOps0_2]
abbrev tailOps : List (List (HloOp τ sig (Elt F))) := [hostOps1, hostOps1_1, hostOps1_2, hostOps1_3, hostOps1_4]

abbrev V0 (c : Dev nD) : Valuation τ sig (Elt F) := StableHlo.after headOps.flatten (fun b => m (c, b))
abbrev V (c : Dev nD) (b : Ref sig .tc) : Buf (Elt F) ((c : Thread nD τ).loc b) := V0 m c (Proc.devRef .tc b)

abbrev argRefs : List (Ref sig .tc) := [main_arg0, main_arg1, main_arg2, main_arg3]
abbrev keptRefs : List (Ref sig .tc) := argRefs ++ [main_v9, main_v10, main_v11, main_v5, main_v7, main_v12]

/-- An operation whose one written reference is outside `L` leaves every reference of `L` alone. -/
def WritesOutside (L : List (Ref sig .tc)) (op : HloOp τ sig (Elt F)) : Prop :=
  ∃ y : Ref sig .tc, op.writes = {Proc.devRef .tc y} ∧ y ∉ L

theorem WritesOutside.not_mem {L : List (Ref sig .tc)} {op : HloOp τ sig (Elt F)} (h : WritesOutside L op)
    {r : Ref sig .tc} (hr : r ∈ L) : Proc.devRef .tc r ∉ op.writes := by
  obtain ⟨y, hw, hy⟩ := h
  rw [hw, Finset.mem_singleton]
  exact StableHlo.devRef_ne_of_ne (fun e => hy (e ▸ hr))

theorem forall_mem_of_Forall {α : Type} {P : α → Prop} {L : List (List α)} (h : L.Forall fun l => l.Forall P) :
    ∀ l ∈ L, ∀ a ∈ l, P a :=
  fun l hl a ha => List.forall_iff_forall_mem.mp (List.forall_iff_forall_mem.mp h l hl) a ha

theorem tail_out : ∀ ops ∈ (tailOps : List (List (HloOp τ sig (Elt F)))), ∀ op ∈ ops, WritesOutside keptRefs op :=
  forall_mem_of_Forall (by (repeat' apply And.intro) <;> exact ⟨_, rfl, by decide⟩)

theorem head_out (op : HloOp τ sig (Elt F)) (hop : op ∈ headOps.flatten) : WritesOutside argRefs op :=
  let ⟨ops, hops, hop'⟩ := List.mem_flatten.mp hop
  forall_mem_of_Forall (by (repeat' apply And.intro) <;> exact ⟨_, rfl, by decide⟩) ops hops op hop'

/-- The program: host operations, the region, host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main headOps tailOps
    ⟨hostOps0_sub, hostOps0_1_sub, hostOps0_2_sub⟩ (by (repeat' apply And.intro) <;> rfl) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact forall_mem_of_Forall ⟨hostOps1_sub.imp fun op h => Pipeline.sub_ucRefs op h, hostOps1_1_sub.imp fun op h => Pipeline.sub_ucRefs op h,
    hostOps1_2_sub.imp fun op h => Pipeline.sub_ucRefs op h, hostOps1_3_sub.imp fun op h => Pipeline.sub_ucRefs op h,
    hostOps1_4_sub.imp fun op h => Pipeline.sub_ucRefs op h⟩

theorem sfx_fresh : ∀ ops ∈ (tailOps : List (List (HloOp τ sig (Elt F)))), ∀ op ∈ ops, op.fresh = ∅ :=
  forall_mem_of_Forall (by (repeat' apply And.intro) <;> rfl)

theorem sfx_keeps : ∀ ops ∈ (tailOps : List (List (HloOp τ sig (Elt F)))), ∀ op ∈ ops,
    ∀ w, Proc.devRef .tc (Pipeline.arrRef spec0 w) ∉ op.writes :=
  fun ops hops op hop w => (tail_out ops hops op hop).not_mem ((by decide : ∀ w : Fin 6, Pipeline.arrRef spec0 w ∈ keptRefs) w)

/-- No host operation before the region writes an argument. -/
theorem V_arg (c : Dev nD) {b : Ref sig .tc} (hb : b ∈ argRefs) : V m c b = m ((c : Thread nD τ).loc b) :=
  StableHlo.after_of_forall_not_mem _ _ fun op hop => (head_out op hop).not_mem hb

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- After the run an argument holds what it held at the start: nothing writes it. -/
theorem arg_kept (dats : (p : Fin 1) → (c : Dev nD) → Dat τ (Elt F) Unit ℕ (UR sig nD τ) ℕ (cfgs p) c) (c : Dev nD)
    {b : Ref sig .tc} (hb : b ∈ argRefs) (r : PUnit × MemSt nD τ sig (Elt F))
    (hr : Pipeline.FramePost cfgs dats 0 (Pipeline.afterTail₀ cfgs dats 0 (V0 m) tailOps) r) :
    r.2.mem ((c.tc : Thread nD τ).loc b) = m ((c.tc : Thread nD τ).loc b) := by
  obtain ⟨hs, hne⟩ := (by decide : ∀ b ∈ argRefs, b.isScoped = false ∧ ∀ w : Fin 6, Pipeline.arrRef spec0 w ≠ b) b hb
  refine ((hr c).2 b (Pipeline.mem_restRefs_of b hs hne)).trans ?_
  unfold Pipeline.afterTail₀
  rw [StableHlo.after_of_forall_not_mem _ _ fun op hop => by
    obtain ⟨ops, hops, hop'⟩ := List.mem_flatten.mp hop
    exact (tail_out ops hops op hop').not_mem (List.mem_append_left _ hb)]
  exact (Pipeline.withArrays_of_ne _ c _ _ b hne).trans (V_arg m c hb)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-- The output block is written only at the last chunk of a row block. -/
theorem idleAt0_5 : ∀ t : Fin cfg0.N, ¬t.val % 50 = 49 → cfg0.idle 5 (grid0.coords t) = true ∧ (cfg0.win 5).flush t = false := by decide +kernel
theorem liveAt0_5 : ∀ t : Fin cfg0.N, t.val % 50 = 49 → cfg0.idle 5 (grid0.coords t) = false := by decide +kernel

abbrev Col (F : FTy → Type) := Vec F S1024x1 .f32
abbrev Pcs (F : FTy → Type) := List (View.Piece (Elt F) S1024x1 .f32)

/-- The nine buffers the body works on, each taken whole: five inputs, the output column, the three carried rows. -/
structure Args where
  a2 : Memref sig .tc .vmem S1024x2048 .bf16
  h2 : a2.IsWhole
  a3 : Memref sig .tc .vmem S640x2048 .bf16
  h3 : a3.IsWhole
  a4 : Memref sig .tc .vmem S1x640 .f32
  h4 : a4.IsWhole
  a5 : Memref sig .tc .vmem S1024x1 .i32
  h5 : a5.IsWhole
  a6 : Memref sig .tc .vmem S1024x1 .f32
  h6 : a6.IsWhole
  a7 : Memref sig .tc .vmem S1024x1 .f32
  h7 : a7.IsWhole
  a8 : Memref sig .tc .vmem S1024x1 .f32
  h8 : a8.IsWhole
  a9 : Memref sig .tc .vmem S1024x1 .f32
  h9 : a9.IsWhole
  a10 : Memref sig .tc .vmem S1024x1 .f32
  h10 : a10.IsWhole

/-- The contents of the five inputs. -/
structure Ins (F : FTy → Type) where
  x0 : Vec F S1024x2048 .bf16
  x1 : Vec F S640x2048 .bf16
  x2 : Vec F S1x640 .f32
  x3 : Vec F S1024x1 .i32
  x4 : Col F

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

/-- The body's buffers at grid point `t`. -/
abbrev argsAt (t : Fin cfg0.N) : Args where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := scM0_0
  h8 := Memref.isWhole_whole _
  a9 := scM0_1
  h9 := Memref.isWhole_whole _
  a10 := scM0_2
  h10 := Memref.isWhole_whole _

/-- The blocks of the five inputs at grid point `t`. -/
abbrev blks (c : Dev nD) (t : Fin cfg0.N) : Ins F := ⟨iblk m c 0 t, iblk m c 1 t, iblk m c 2 t, iblk m c 3 t, iblk m c 4 t⟩

abbrev body (i : grid0.Coords) (a : Args) : Prog (TpuEff nD τ sig (Elt F) Λ₀ .tc) PUnit :=
  cc0__fused_logp_kernel i a.a2 a.h2 a.a3 a.h3 a.a4 a.h4 a.a5 a.h5 a.a6 a.h6 a.a7 a.h7 a.a8 a.h8 a.a9 a.h9 a.a10 a.h10

/-- A column at some contents overwritten by the pieces `L`. -/
abbrev wrote (c : Dev nD) (v : Memref sig .tc .vmem S1024x1 .f32) (L : Pcs F) : sProp 𝕄 :=
  iprop(∃ f, v.view.loc (c : Thread nD τ) ↦[v.view.set]{fullShare} v.view.writes (Elt F) f L)

/-- The three carried rows at any contents. -/
abbrev anyRows (c : Dev nD) : sProp 𝕄 :=
  iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r))

theorem PhiA0_eq (c : Dev nD) : (Pipeline.ΦA spec0 c : sProp 𝕄) = anyRows c := by
  unfold Pipeline.ΦA anyRows
  rw [scopedRest0_eq]
  simp only [scM0_0, scM0_1, scM0_2, owns_whole]
  rfl

end Cert.Kernel.Fr

end
-- ==== Proof.KRunA.lean ====
import proofs.«419790_j22101901705594_3_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a first chunk of a row block: the carried rows are reset before they are read, so they may hold anything; the output column is not touched. -/
noncomputable def kernelRun0_A (c : Dev nD) (i : grid0.Coords) (a : Args) (hc0 : cond0_0 i) (hc1 : ¬cond0_1 i) (x : Ins F) :
    Σ' (L5 LS0 LS1 : Pcs F), { LS2 : Pcs F //
      ∀ (xi5 : Col F) (E : Set ℕ) (K : PUnit → sProp 𝕄),
        iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ owns (c : Thread nD τ) a.a7 fullShare xi5 ∗ (∃ d, owns (c : Thread nD τ) a.a8 fullShare d) ∗ (∃ d, owns (c : Thread nD τ) a.a9 fullShare d) ∗ (∃ d, owns (c : Thread nD τ) a.a10 fullShare d)
            ∗ (iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ owns (c : Thread nD τ) a.a7 fullShare xi5 ∗ wrote c a.a8 LS0 ∗ wrote c a.a9 LS1 ∗ wrote c a.a10 LS2) -∗ K ⟨⟩))
          ⊢ wp frame (wpE (defs₀ (F := F)) Variants.none c none) E (body i a) K } := by
  refine ⟨[], ?_, ?_, ?_, fun xi5 E K => ?run⟩
  case run =>
    unfold body wrote owns
    simp only [cc0__fused_logp_kernel_eq_skeleton]; unfold cc0__fused_logp_kernel_skel
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := a.h2.eq_unread hf0; obtain rfl := a.h3.eq_unread hf1; obtain rfl := a.h4.eq_unread hf2; obtain rfl := a.h5.eq_unread hf3; obtain rfl := a.h6.eq_unread hf4; obtain rfl := a.h7.eq_unread hf5
    sl_exec (disch := first | exact hc0 | exact hc1)
    sl_step
    iapply Hk
    isplitl [H0]
    · iexists _; isplitr; · ipureintro; exact a.h2.read_unread _
      iexact H0
    isplitl [H1]
    · iexists _; isplitr; · ipureintro; exact a.h3.read_unread _
      iexact H1
    isplitl [H2]
    · iexists _; isplitr; · ipureintro; exact a.h4.read_unread _
      iexact H2
    isplitl [H3]
    · iexists _; isplitr; · ipureintro; exact a.h5.read_unread _
      iexact H3
    isplitl [H4]
    · iexists _; isplitr; · ipureintro; exact a.h6.read_unread _
      iexact H4
    isplitl [H5]
    · iexists _; isplitr; · ipureintro; exact a.h7.read_unread _
      iexact H5
    isplitl [HS0]; · iexists _; iexact HS0
    isplitl [HS1]; · iexists _; iexact HS1
    iexists _; iexact HS2

end Cert.Kernel.Fr

end
-- ==== Proof.KRunB.lean ====
import proofs.«419790_j22101901705594_3_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a middle chunk: the carried rows are read at what the chunk before left and stored anew; the output column is not touched. -/
noncomputable def kernelRun0_B (c : Dev nD) (i : grid0.Coords) (a : Args) (hc0 : ¬cond0_0 i) (hc1 : ¬cond0_1 i) (x : Ins F) (xs : Col F × Col F × Col F) :
    Σ' (L5 LS0 LS1 : Pcs F), { LS2 : Pcs F //
      ∀ (xi5 : Col F) (E : Set ℕ) (K : PUnit → sProp 𝕄),
        iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ owns (c : Thread nD τ) a.a7 fullShare xi5 ∗ owns (c : Thread nD τ) a.a8 fullShare xs.1 ∗ owns (c : Thread nD τ) a.a9 fullShare xs.2.1 ∗ owns (c : Thread nD τ) a.a10 fullShare xs.2.2
            ∗ (iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ owns (c : Thread nD τ) a.a7 fullShare xi5 ∗ wrote c a.a8 LS0 ∗ wrote c a.a9 LS1 ∗ wrote c a.a10 LS2) -∗ K ⟨⟩))
          ⊢ wp frame (wpE (defs₀ (F := F)) Variants.none c none) E (body i a) K } := by
  refine ⟨[], ?_, ?_, ?_, fun xi5 E K => ?run⟩
  case run =>
    unfold body wrote owns
    simp only [cc0__fused_logp_kernel_eq_skeleton]; unfold cc0__fused_logp_kernel_skel
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := a.h2.eq_unread hf0; obtain rfl := a.h3.eq_unread hf1; obtain rfl := a.h4.eq_unread hf2; obtain rfl := a.h5.eq_unread hf3; obtain rfl := a.h6.eq_unread hf4; obtain rfl := a.h7.eq_unread hf5
    obtain rfl := a.h8.eq_unread hfs0; obtain rfl := a.h9.eq_unread hfs1; obtain rfl := a.h10.eq_unread hfs2
    sl_exec (disch := first | exact hc0 | exact hc1)
    sl_step
    iapply Hk
    isplitl [H0]
    · iexists _; isplitr; · ipureintro; exact a.h2.read_unread _
      iexact H0
    isplitl [H1]
    · iexists _; isplitr; · ipureintro; exact a.h3.read_unread _
      iexact H1
    isplitl [H2]
    · iexists _; isplitr; · ipureintro; exact a.h4.read_unread _
      iexact H2
    isplitl [H3]
    · iexists _; isplitr; · ipureintro; exact a.h5.read_unread _
      iexact H3
    isplitl [H4]
    · iexists _; isplitr; · ipureintro; exact a.h6.read_unread _
      iexact H4
    isplitl [H5]
    · iexists _; isplitr; · ipureintro; exact a.h7.read_unread _
      iexact H5
    isplitl [HS0]; · iexists _; iexact HS0
    isplitl [HS1]; · iexists _; iexact HS1
    iexists _; iexact HS2

end Cert.Kernel.Fr

end
-- ==== Proof.KRunC.lean ====
import proofs.«419790_j22101901705594_3_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a last chunk of a row block: as at a middle chunk, and the output column, at anything before, is stored whole. -/
noncomputable def kernelRun0_C (c : Dev nD) (i : grid0.Coords) (a : Args) (hc0 : ¬cond0_0 i) (hc1 : cond0_1 i) (x : Ins F) (xs : Col F × Col F × Col F) :
    Σ' (L5 LS0 LS1 : Pcs F), { LS2 : Pcs F //
      ∀ (E : Set ℕ) (K : PUnit → sProp 𝕄),
        iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ (∃ d, owns (c : Thread nD τ) a.a7 fullShare d) ∗ owns (c : Thread nD τ) a.a8 fullShare xs.1 ∗ owns (c : Thread nD τ) a.a9 fullShare xs.2.1 ∗ owns (c : Thread nD τ) a.a10 fullShare xs.2.2
            ∗ (iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ wrote c a.a7 L5 ∗ wrote c a.a8 LS0 ∗ wrote c a.a9 LS1 ∗ wrote c a.a10 LS2) -∗ K ⟨⟩))
          ⊢ wp frame (wpE (defs₀ (F := F)) Variants.none c none) E (body i a) K } := by
  refine ⟨?_, ?_, ?_, ?_, fun E K => ?run⟩
  case run =>
    unfold body wrote owns
    simp only [cc0__fused_logp_kernel_eq_skeleton]; unfold cc0__fused_logp_kernel_skel
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := a.h2.eq_unread hf0; obtain rfl := a.h3.eq_unread hf1; obtain rfl := a.h4.eq_unread hf2; obtain rfl := a.h5.eq_unread hf3; obtain rfl := a.h6.eq_unread hf4
    obtain rfl := a.h8.eq_unread hfs0; obtain rfl := a.h9.eq_unread hfs1; obtain rfl := a.h10.eq_unread hfs2
    sl_exec (disch := first | exact hc0 | exact hc1)
    sl_step
    iapply Hk
    isplitl [H0]
    · iexists _; isplitr; · ipureintro; exact a.h2.read_unread _
      iexact H0
    isplitl [H1]
    · iexists _; isplitr; · ipureintro; exact a.h3.read_unread _
      iexact H1
    isplitl [H2]
    · iexists _; isplitr; · ipureintro; exact a.h4.read_unread _
      iexact H2
    isplitl [H3]
    · iexists _; isplitr; · ipureintro; exact a.h5.read_unread _
      iexact H3
    isplitl [H4]
    · iexists _; isplitr; · ipureintro; exact a.h6.read_unread _
      iexact H4
    isplitl [H5]; · iexists _; iexact H5
    isplitl [HS0]; · iexists _; iexact HS0
    isplitl [HS1]; · iexists _; iexact HS1
    iexists _; iexact HS2

end Cert.Kernel.Fr

end
-- ==== Proof.KData.lean ====
import proofs.«419790_j22101901705594_3_alg».proof.Proof.KRunA
import proofs.«419790_j22101901705594_3_alg».proof.Proof.KRunB
import proofs.«419790_j22101901705594_3_alg».proof.Proof.KRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Tiles (L : Pcs F) : Prop := ∀ y : S1024x1.Idx, ∃ pc ∈ L, y ∈ pc.1.set

/-- Stores that tile a column leave the column their pieces describe, whatever it held before. -/
theorem owns_of_wrote (c : Dev nD) (v : Memref sig .tc .vmem S1024x1 .f32) (L : Pcs F) (h : Tiles L) :
    (wrote c v L : sProp 𝕄) ⊢ owns (c : Thread nD τ) v fullShare (View.canon L) := by
  unfold wrote owns
  iintro ⟨%f, H⟩
  iexists _; isplitr; swap; · iexact H
  ipureintro; exact View.read_writes_eq_canon _ _ _ h

section Point

variable (c : Dev nD) (i : grid0.Coords) (a : Args) (x : Ins F) (xs : Col F × Col F × Col F)

theorem coverA (hc0 : cond0_0 i) (hc1 : ¬cond0_1 i) :
    Tiles (kernelRun0_A c i a hc0 hc1 x).2.1 ∧ Tiles (kernelRun0_A c i a hc0 hc1 x).2.2.1 ∧ Tiles (kernelRun0_A c i a hc0 hc1 x).2.2.2.1 :=
  ⟨View.cover_of_tiledL _ S1024x1.size (by sl_kernel_rfl), View.cover_of_tiledL _ S1024x1.size (by sl_kernel_rfl), View.cover_of_tiledL _ S1024x1.size (by sl_kernel_rfl)⟩

theorem coverB (hc0 : ¬cond0_0 i) (hc1 : ¬cond0_1 i) :
    Tiles (kernelRun0_B c i a hc0 hc1 x xs).2.1 ∧ Tiles (kernelRun0_B c i a hc0 hc1 x xs).2.2.1 ∧ Tiles (kernelRun0_B c i a hc0 hc1 x xs).2.2.2.1 :=
  ⟨View.cover_of_tiledL _ S1024x1.size (by sl_kernel_rfl), View.cover_of_tiledL _ S1024x1.size (by sl_kernel_rfl), View.cover_of_tiledL _ S1024x1.size (by sl_kernel_rfl)⟩

theorem coverC (hc0 : ¬cond0_0 i) (hc1 : cond0_1 i) :
    Tiles (kernelRun0_C c i a hc0 hc1 x xs).1 ∧ Tiles (kernelRun0_C c i a hc0 hc1 x xs).2.1 ∧ Tiles (kernelRun0_C c i a hc0 hc1 x xs).2.2.1 ∧ Tiles (kernelRun0_C c i a hc0 hc1 x xs).2.2.2.1 :=
  ⟨View.cover_of_tiledL _ S1024x1.size (by sl_kernel_rfl), View.cover_of_tiledL _ S1024x1.size (by sl_kernel_rfl), View.cover_of_tiledL _ S1024x1.size (by sl_kernel_rfl), View.cover_of_tiledL _ S1024x1.size (by sl_kernel_rfl)⟩

end Point

/-- The four piece lists of a run (output column, then the three carried rows), each read back as one column. -/
def canons {Q : Pcs F → Pcs F → Pcs F → Pcs F → Prop}
    (r : Σ' (L5 LS0 LS1 : Pcs F), { LS2 : Pcs F // Q L5 LS0 LS1 LS2 }) : Col F × Col F × Col F × Col F :=
  (View.canon r.1, View.canon r.2.1, View.canon r.2.2.1, View.canon r.2.2.2.1)

/-- The output column and the carried rows after position `n`: a first chunk of a row block starts from nothing, every other chunk from the rows the chunk before left. -/
def outsAt0 (c : Dev nD) : (n : ℕ) → n < cfg0.N → Col F × Col F × Col F × Col F
  | 0, hn => canons (kernelRun0_A c (grid0.coords ⟨0, hn⟩) (argsAt ⟨0, hn⟩) ((hcond0_0 ⟨0, hn⟩).mpr (Nat.zero_mod _))
      ((hcond0_1 ⟨0, hn⟩).not.mpr (by dsimp only; omega)) (blks m c ⟨0, hn⟩))
  | n + 1, hn =>
    if h0 : (n + 1) % 50 = 0 then
      canons (kernelRun0_A c (grid0.coords ⟨n + 1, hn⟩) (argsAt ⟨n + 1, hn⟩) ((hcond0_0 ⟨n + 1, hn⟩).mpr h0)
        ((hcond0_1 ⟨n + 1, hn⟩).not.mpr (by dsimp only; omega)) (blks m c ⟨n + 1, hn⟩))
    else if h1 : (n + 1) % 50 = 49 then
      canons (kernelRun0_C c (grid0.coords ⟨n + 1, hn⟩) (argsAt ⟨n + 1, hn⟩) ((hcond0_0 ⟨n + 1, hn⟩).not.mpr h0)
        ((hcond0_1 ⟨n + 1, hn⟩).mpr h1) (blks m c ⟨n + 1, hn⟩) (outsAt0 c n (Nat.lt_of_succ_lt hn)).2)
    else
      canons (kernelRun0_B c (grid0.coords ⟨n + 1, hn⟩) (argsAt ⟨n + 1, hn⟩) ((hcond0_0 ⟨n + 1, hn⟩).not.mpr h0)
        ((hcond0_1 ⟨n + 1, hn⟩).not.mpr h1) (blks m c ⟨n + 1, hn⟩) (outsAt0 c n (Nat.lt_of_succ_lt hn)).2)

theorem outsAt0_A (c : Dev nD) (t : Fin cfg0.N) (h0 : t.val % 50 = 0) (h1 : ¬t.val % 50 = 49) :
    outsAt0 m c t.val t.isLt = canons (kernelRun0_A c (grid0.coords t) (argsAt t) ((hcond0_0 t).mpr h0) ((hcond0_1 t).not.mpr h1) (blks m c t)) := by
  obtain ⟨n, hn⟩ := t
  cases n with
  | zero => rfl
  | succ n => exact dif_pos h0

theorem outsAt0_B (c : Dev nD) (t : Fin cfg0.N) (h0 : ¬t.val % 50 = 0) (h1 : ¬t.val % 50 = 49) :
    outsAt0 m c t.val t.isLt = canons (kernelRun0_B c (grid0.coords t) (argsAt t) ((hcond0_0 t).not.mpr h0) ((hcond0_1 t).not.mpr h1) (blks m c t)
      (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 50 = 0) (h1 : t.val % 50 = 49) :
    outsAt0 m c t.val t.isLt = canons (kernelRun0_C c (grid0.coords t) (argsAt t) ((hcond0_0 t).not.mpr h0) ((hcond0_1 t).mpr h1) (blks m c t)
      (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-- The three carried rows at given contents. -/
abbrev rows (c : Dev nD) (s : Col F × Col F × Col F) : sProp 𝕄 :=
  iprop(owns (c : Thread nD τ) scM0_0 fullShare s.1 ∗ owns (c : Thread nD τ) scM0_1 fullShare s.2.1 ∗ owns (c : Thread nD τ) scM0_2 fullShare s.2.2)

/-- Between positions: at the start the carried rows hold anything, after position `n` they hold `outsAt0`'s rows at `n`. -/
def PhiS (c : Dev nD) : (n : ℕ) → n ≤ cfg0.N → sProp 𝕄
  | 0, _ => Pipeline.ΦA spec0 c
  | n + 1, hn => iprop(rows c (outsAt0 m c n hn).2 ∗ (∃ r, prngReg c r))

theorem PhiS_pos (c : Dev nD) (n : ℕ) (h : n ≤ cfg0.N) (hz : n ≠ 0) :
    PhiS m c n h = iprop(rows c (outsAt0 m c (n - 1) (by omega)).2 ∗ (∃ r, prngReg c r)) := by
  cases n with
  | zero => exact absurd rfl hz
  | succ n => rfl

/-- Forgetting what the carried rows hold. -/
theorem PhiS_out (c : Dev nD) (n : ℕ) (h : n ≤ cfg0.N) : PhiS m c n h ⊢ anyRows c := by
  cases n with
  | zero => rw [← PhiA0_eq]; exact .rfl
  | succ n =>
    show iprop(rows c (outsAt0 m c n h).2 ∗ (∃ r, prngReg c r)) ⊢ _
    iintro ⟨⟨HS0, HS1, HS2⟩, Hg⟩
    isplitl [HS0 HS1 HS2]
    · isplitl [HS0]; · iexists _; iexact HS0
      isplitl [HS1]; · iexists _; iexact HS1
      iexists _; iexact HS2
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem after0_5 (c : Dev nD) (t : Fin cfg0.N) : (dats m 0 c).after 5 t = (outsAt0 m c t.val t.isLt).1 := rfl

/-- Each input is found at its block of the array, at every grid point. -/
theorem before_of {c : Dev nD} (dat : Dat τ (Elt F) Unit ℕ (UR sig nD τ) ℕ cfg0 c) (hA : ∀ w, dat.A w = V m c (Pipeline.arrRef spec0 w))
    (h0 : ∀ t, dat.after 0 t = iblk m c 0 t) (h1 : ∀ t, dat.after 1 t = iblk m c 1 t) (h2 : ∀ t, dat.after 2 t = iblk m c 2 t)
    (h3 : ∀ t, dat.after 3 t = iblk m c 3 t) (h4 : ∀ t, dat.after 4 t = iblk m c 4 t) (t : Fin cfg0.N) :
    (∀ d, dat.before 0 t d = iblk m c 0 t) ∧ (∀ d, dat.before 1 t d = iblk m c 1 t) ∧ (∀ d, dat.before 2 t d = iblk m c 2 t)
      ∧ (∀ d, dat.before 3 t d = iblk m c 3 t) ∧ (∀ d, dat.before 4 t d = iblk m c 4 t) := by
  have hblk : ∀ w t, dat.blockOf w t = iblk m c w t := fun w t => by unfold Dat.blockOf iblk; rw [hA]
  refine ⟨fun d => ?_, fun d => ?_, fun d => ?_, fun d => ?_, fun d => ?_⟩ <;>
    (rw [dat.before_in_eq_fetched _ rfl (fun _ => rfl) (fun _ _ _ => rfl)
        (fun t => by first | rw [h0, hblk] | rw [h1, hblk] | rw [h2, hblk] | rw [h3, hblk] | rw [h4, hblk]) t d]
     unfold Dat.fetched
     rw [hblk]; rfl)

theorem before0 (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t)
      ∧ (∀ d, (dats m 0 c).before 4 t d = iblk m c 4 t) :=
  by
  refine before_of m (dats m 0 c) ?_ ?_ ?_ ?_ ?_ ?_ t <;> intro _ <;> dsimp only [dats]

theorem leaves0 (c : Dev nD) (t : Fin cfg0.N) :
    (dats m 0 c).leavesExact 0 t = owns (c : Thread nD τ) (argsAt t).a2 fullShare (iblk m c 0 t)
    ∧ (dats m 0 c).leavesExact 1 t = owns (c : Thread nD τ) (argsAt t).a3 fullShare (iblk m c 1 t)
    ∧ (dats m 0 c).leavesExact 2 t = owns (c : Thread nD τ) (argsAt t).a4 fullShare (iblk m c 2 t)
    ∧ (dats m 0 c).leavesExact 3 t = owns (c : Thread nD τ) (argsAt t).a5 fullShare (iblk m c 3 t)
    ∧ (dats m 0 c).leavesExact 4 t = owns (c : Thread nD τ) (argsAt t).a6 fullShare (iblk m c 4 t) :=
  ⟨rfl, rfl, rfl, rfl, rfl⟩

end Cert.Kernel.Fr

end
-- ==== Proof.KFrame.lean ====
import proofs.«419790_j22101901705594_3_alg».proof.Proof.KData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (argsAt t).a2 fullShare ((dats m 0 c).before 0 t d))
    ∗ (∃ d, owns (c : Thread nD τ) (argsAt t).a3 fullShare ((dats m 0 c).before 1 t d))
    ∗ (∃ d, owns (c : Thread nD τ) (argsAt t).a4 fullShare ((dats m 0 c).before 2 t d))
    ∗ (∃ d, owns (c : Thread nD τ) (argsAt t).a5 fullShare ((dats m 0 c).before 3 t d))
    ∗ (∃ d, owns (c : Thread nD τ) (argsAt t).a6 fullShare ((dats m 0 c).before 4 t d))
    ∗ (∃ d, owns (c : Thread nD τ) (argsAt t).a7 fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any grid point: the carried rows come back at this point's values because the stores into each tile it, and so does the output column at a last chunk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  obtain ⟨b0, b1, b2, b3, b4⟩ := before0 m c t
  obtain ⟨l0, l1, l2, l3, l4⟩ := leaves0 m c t
  simp only [b0, b1, b2, b3, b4]
  rw [l0, l1, l2, l3, l4, show (dats m 0 c).owesAt () t.succ = (dats m 0 c).owesAt () t.castSucc from rfl,
    show (dats m 0 c).Φ t.succ = iprop(rows c (outsAt0 m c t.val t.isLt).2 ∗ (∃ r, prngReg c r)) from rfl,
    show (dats m 0 c).Φ t.castSucc = PhiS m c t.val (Nat.le_of_lt t.isLt) from rfl]
  have hN : t.val < 200 := lt_of_lt_of_eq t.isLt (show cfg0.N = 200 from N_0)
  by_cases h0 : t.val % 50 = 0
  · have h1 : ¬t.val % 50 = 49 := by omega
    rw [Dat.leavesExact_idle (dats m 0 c) 5 t (idleAt0_5 t h1).1 (idleAt0_5 t h1).2, outsAt0_A m c t h0 h1]
    dsimp only [canons]
    iintro ⟨HP, Ho, ⟨%d0, H0⟩, ⟨%d1, H1⟩, ⟨%d2, H2⟩, ⟨%d3, H3⟩, ⟨%d4, H4⟩, ⟨%d5, H5⟩⟩
    ihave ⟨⟨HS0, HS1, HS2⟩, Hg⟩ := (PhiS_out m c _ _) $$ HP
    iapply ((kernelRun0_A c (grid0.coords t) (argsAt t) ((hcond0_0 t).mpr h0) ((hcond0_1 t).not.mpr h1) (blks m c t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    have hcov := coverA c (grid0.coords t) (argsAt t) (blks m c t) ((hcond0_0 t).mpr h0) ((hcond0_1 t).not.mpr h1)
    ihave HS0 := (owns_of_wrote c _ _ hcov.1) $$ HS0
    ihave HS1 := (owns_of_wrote c _ _ hcov.2.1) $$ HS1
    ihave HS2 := (owns_of_wrote c _ _ hcov.2.2) $$ HS2
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS_pos m c _ _ (fun hz => h0 (by rw [hz]))]
    by_cases h1 : t.val % 50 = 49
    · rw [show (dats m 0 c).leavesExact 5 t = owns (c : Thread nD τ) (argsAt t).a7 fullShare ((dats m 0 c).after 5 t) from by
        unfold Dat.leavesExact; rw [liveAt0_5 t h1], after0_5, outsAt0_C m c t h0 h1]
      dsimp only [canons]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (argsAt t) ((hcond0_0 t).not.mpr h0) ((hcond0_1 t).mpr h1) (blks m c t) (outsAt0 m c (t.val - 1) (by omega)).2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      have hcov := coverC c (grid0.coords t) (argsAt t) (blks m c t) (outsAt0 m c (t.val - 1) (by omega)).2 ((hcond0_0 t).not.mpr h0) ((hcond0_1 t).mpr h1)
      ihave H5 := (owns_of_wrote c _ _ hcov.1) $$ H5
      ihave HS0 := (owns_of_wrote c _ _ hcov.2.1) $$ HS0
      ihave HS1 := (owns_of_wrote c _ _ hcov.2.2.1) $$ HS1
      ihave HS2 := (owns_of_wrote c _ _ hcov.2.2.2) $$ HS2
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (idleAt0_5 t h1).1 (idleAt0_5 t h1).2, outsAt0_B m c t h0 h1]
      dsimp only [canons]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (argsAt t) ((hcond0_0 t).not.mpr h0) ((hcond0_1 t).not.mpr h1) (blks m c t) (outsAt0 m c (t.val - 1) (by omega)).2).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      have hcov := coverB c (grid0.coords t) (argsAt t) (blks m c t) (outsAt0 m c (t.val - 1) (by omega)).2 ((hcond0_0 t).not.mpr h0) ((hcond0_1 t).not.mpr h1)
      ihave HS0 := (owns_of_wrote c _ _ hcov.1) $$ HS0
      ihave HS1 := (owns_of_wrote c _ _ hcov.2.1) $$ HS1
      ihave HS2 := (owns_of_wrote c _ _ hcov.2.2) $$ HS2
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution from zero counters terminates; the region's arrays end as the accumulation says and every other buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := fun _ _ => rfl) (hin := fun _ => .rfl)
    (hout := fun c => by rw [PhiA0_eq]; exact (PhiS_out m c _ (Nat.le_refl _) : PhiS m c (Fin.last cfg0.N).val _ ⊢ _))

/-- The program runs to completion and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨arg_kept m (dats m) c (by decide) r hr, arg_kept m (dats m) c (by decide) r hr,
    arg_kept m (dats m) c (by decide) r hr, arg_kept m (dats m) c (by decide) r hr⟩) (run_main m ρ)

end Cert.Kernel.Fr

end
-- ==== Proof.KIKit.lean ====
import proofs.«419790_j22101901705594_3_alg».proof.Proof.Gen.KernelIdeal.Launch
import proofs.«419790_j22101901705594_3_alg».proof.Proof.Gen.KernelIdeal.Skeleton
import proofs.«419790_j22101901705594_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev headOps : List (List (HloOp τ sig (Elt F))) := [hostOps0, hostOps0_1, hostOps0_2]
abbrev tailOps : List (List (HloOp τ sig (Elt F))) := [hostOps1, hostOps1_1, hostOps1_2, hostOps1_3, hostOps1_4]

abbrev V0 (c : Dev nD) : Valuation τ sig (Elt F) := StableHlo.after headOps.flatten (fun b => m (c, b))
abbrev V (c : Dev nD) (b : Ref sig .tc) : Buf (Elt F) ((c : Thread nD τ).loc b) := V0 m c (Proc.devRef .tc b)

abbrev argRefs : List (Ref sig .tc) := [main_arg0, main_arg1, main_arg2, main_arg3]
abbrev keptRefs : List (Ref sig .tc) := argRefs ++ [main_v9, main_v10, main_v11, main_v5, main_v7, main_v12]

/-- An operation whose one written reference is outside `L` leaves every reference of `L` alone. -/
def WritesOutside (L : List (Ref sig .tc)) (op : HloOp τ sig (Elt F)) : Prop :=
  ∃ y : Ref sig .tc, op.writes = {Proc.devRef .tc y} ∧ y ∉ L

theorem WritesOutside.not_mem {L : List (Ref sig .tc)} {op : HloOp τ sig (Elt F)} (h : WritesOutside L op)
    {r : Ref sig .tc} (hr : r ∈ L) : Proc.devRef .tc r ∉ op.writes := by
  obtain ⟨y, hw, hy⟩ := h
  rw [hw, Finset.mem_singleton]
  exact StableHlo.devRef_ne_of_ne (fun e => hy (e ▸ hr))

theorem forall_mem_of_Forall {α : Type} {P : α → Prop} {L : List (List α)} (h : L.Forall fun l => l.Forall P) :
    ∀ l ∈ L, ∀ a ∈ l, P a :=
  fun l hl a ha => List.forall_iff_forall_mem.mp (List.forall_iff_forall_mem.mp h l hl) a ha

theorem tail_out : ∀ ops ∈ (tailOps : List (List (HloOp τ sig (Elt F)))), ∀ op ∈ ops, WritesOutside keptRefs op :=
  forall_mem_of_Forall (by (repeat' apply And.intro) <;> exact ⟨_, rfl, by decide⟩)

theorem head_out (op : HloOp τ sig (Elt F)) (hop : op ∈ headOps.flatten) : WritesOutside argRefs op :=
  let ⟨ops, hops, hop'⟩ := List.mem_flatten.mp hop
  forall_mem_of_Forall (by (repeat' apply And.intro) <;> exact ⟨_, rfl, by decide⟩) ops hops op hop'

/-- The program: host operations, the region, host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main headOps tailOps
    ⟨hostOps0_sub, hostOps0_1_sub, hostOps0_2_sub⟩ (by (repeat' apply And.intro) <;> rfl) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact forall_mem_of_Forall ⟨hostOps1_sub.imp fun op h => Pipeline.sub_ucRefs op h, hostOps1_1_sub.imp fun op h => Pipeline.sub_ucRefs op h,
    hostOps1_2_sub.imp fun op h => Pipeline.sub_ucRefs op h, hostOps1_3_sub.imp fun op h => Pipeline.sub_ucRefs op h,
    hostOps1_4_sub.imp fun op h => Pipeline.sub_ucRefs op h⟩

theorem sfx_fresh : ∀ ops ∈ (tailOps : List (List (HloOp τ sig (Elt F)))), ∀ op ∈ ops, op.fresh = ∅ :=
  forall_mem_of_Forall (by (repeat' apply And.intro) <;> rfl)

theorem sfx_keeps : ∀ ops ∈ (tailOps : List (List (HloOp τ sig (Elt F)))), ∀ op ∈ ops,
    ∀ w, Proc.devRef .tc (Pipeline.arrRef spec0 w) ∉ op.writes :=
  fun ops hops op hop w => (tail_out ops hops op hop).not_mem ((by decide : ∀ w : Fin 6, Pipeline.arrRef spec0 w ∈ keptRefs) w)

/-- No host operation before the region writes an argument. -/
theorem V_arg (c : Dev nD) {b : Ref sig .tc} (hb : b ∈ argRefs) : V m c b = m ((c : Thread nD τ).loc b) :=
  StableHlo.after_of_forall_not_mem _ _ fun op hop => (head_out op hop).not_mem hb

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- After the run an argument holds what it held at the start: nothing writes it. -/
theorem arg_kept (dats : (p : Fin 1) → (c : Dev nD) → Dat τ (Elt F) Unit ℕ (UR sig nD τ) ℕ (cfgs p) c) (c : Dev nD)
    {b : Ref sig .tc} (hb : b ∈ argRefs) (r : PUnit × MemSt nD τ sig (Elt F))
    (hr : Pipeline.FramePost cfgs dats 0 (Pipeline.afterTail₀ cfgs dats 0 (V0 m) tailOps) r) :
    r.2.mem ((c.tc : Thread nD τ).loc b) = m ((c.tc : Thread nD τ).loc b) := by
  obtain ⟨hs, hne⟩ := (by decide : ∀ b ∈ argRefs, b.isScoped = false ∧ ∀ w : Fin 6, Pipeline.arrRef spec0 w ≠ b) b hb
  refine ((hr c).2 b (Pipeline.mem_restRefs_of b hs hne)).trans ?_
  unfold Pipeline.afterTail₀
  rw [StableHlo.after_of_forall_not_mem _ _ fun op hop => by
    obtain ⟨ops, hops, hop'⟩ := List.mem_flatten.mp hop
    exact (tail_out ops hops op hop').not_mem (List.mem_append_left _ hb)]
  exact (Pipeline.withArrays_of_ne _ c _ _ b hne).trans (V_arg m c hb)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-- The output block is written only at the last chunk of a row block. -/
theorem idleAt0_5 : ∀ t : Fin cfg0.N, ¬t.val % 50 = 49 → cfg0.idle 5 (grid0.coords t) = true ∧ (cfg0.win 5).flush t = false := by decide +kernel
theorem liveAt0_5 : ∀ t : Fin cfg0.N, t.val % 50 = 49 → cfg0.idle 5 (grid0.coords t) = false := by decide +kernel

abbrev Col (F : FTy → Type) := Vec F S1024x1 .f32
abbrev Pcs (F : FTy → Type) := List (View.Piece (Elt F) S1024x1 .f32)

/-- The nine buffers the body works on, each taken whole: five inputs, the output column, the three carried rows. -/
structure Args where
  a2 : Memref sig .tc .vmem S1024x2048 .bf16
  h2 : a2.IsWhole
  a3 : Memref sig .tc .vmem S640x2048 .bf16
  h3 : a3.IsWhole
  a4 : Memref sig .tc .vmem S1x640 .f32
  h4 : a4.IsWhole
  a5 : Memref sig .tc .vmem S1024x1 .i32
  h5 : a5.IsWhole
  a6 : Memref sig .tc .vmem S1024x1 .f32
  h6 : a6.IsWhole
  a7 : Memref sig .tc .vmem S1024x1 .f32
  h7 : a7.IsWhole
  a8 : Memref sig .tc .vmem S1024x1 .f32
  h8 : a8.IsWhole
  a9 : Memref sig .tc .vmem S1024x1 .f32
  h9 : a9.IsWhole
  a10 : Memref sig .tc .vmem S1024x1 .f32
  h10 : a10.IsWhole

/-- The contents of the five inputs. -/
structure Ins (F : FTy → Type) where
  x0 : Vec F S1024x2048 .bf16
  x1 : Vec F S640x2048 .bf16
  x2 : Vec F S1x640 .f32
  x3 : Vec F S1024x1 .i32
  x4 : Col F

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

/-- The body's buffers at grid point `t`. -/
abbrev argsAt (t : Fin cfg0.N) : Args where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := scM0_0
  h8 := Memref.isWhole_whole _
  a9 := scM0_1
  h9 := Memref.isWhole_whole _
  a10 := scM0_2
  h10 := Memref.isWhole_whole _

/-- The blocks of the five inputs at grid point `t`. -/
abbrev blks (c : Dev nD) (t : Fin cfg0.N) : Ins F := ⟨iblk m c 0 t, iblk m c 1 t, iblk m c 2 t, iblk m c 3 t, iblk m c 4 t⟩

abbrev body (i : grid0.Coords) (a : Args) : Prog (TpuEff nD τ sig (Elt F) Λ₀ .tc) PUnit :=
  cc0__fused_logp_kernel i a.a2 a.h2 a.a3 a.h3 a.a4 a.h4 a.a5 a.h5 a.a6 a.h6 a.a7 a.h7 a.a8 a.h8 a.a9 a.h9 a.a10 a.h10

/-- A column at some contents overwritten by the pieces `L`. -/
abbrev wrote (c : Dev nD) (v : Memref sig .tc .vmem S1024x1 .f32) (L : Pcs F) : sProp 𝕄 :=
  iprop(∃ f, v.view.loc (c : Thread nD τ) ↦[v.view.set]{fullShare} v.view.writes (Elt F) f L)

/-- The three carried rows at any contents. -/
abbrev anyRows (c : Dev nD) : sProp 𝕄 :=
  iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r))

theorem PhiA0_eq (c : Dev nD) : (Pipeline.ΦA spec0 c : sProp 𝕄) = anyRows c := by
  unfold Pipeline.ΦA anyRows
  rw [scopedRest0_eq]
  simp only [scM0_0, scM0_1, scM0_2, owns_whole]
  rfl

end Cert.KernelIdeal.Fr

end
-- ==== Proof.KIRunA.lean ====
import proofs.«419790_j22101901705594_3_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a first chunk of a row block: the carried rows are reset before they are read, so they may hold anything; the output column is not touched. -/
noncomputable def kernelRun0_A (c : Dev nD) (i : grid0.Coords) (a : Args) (hc0 : cond0_0 i) (hc1 : ¬cond0_1 i) (x : Ins F) :
    Σ' (L5 LS0 LS1 : Pcs F), { LS2 : Pcs F //
      ∀ (xi5 : Col F) (E : Set ℕ) (K : PUnit → sProp 𝕄),
        iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ owns (c : Thread nD τ) a.a7 fullShare xi5 ∗ (∃ d, owns (c : Thread nD τ) a.a8 fullShare d) ∗ (∃ d, owns (c : Thread nD τ) a.a9 fullShare d) ∗ (∃ d, owns (c : Thread nD τ) a.a10 fullShare d)
            ∗ (iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ owns (c : Thread nD τ) a.a7 fullShare xi5 ∗ wrote c a.a8 LS0 ∗ wrote c a.a9 LS1 ∗ wrote c a.a10 LS2) -∗ K ⟨⟩))
          ⊢ wp frame (wpE (defs₀ (F := F)) Variants.none c none) E (body i a) K } := by
  refine ⟨[], ?_, ?_, ?_, fun xi5 E K => ?run⟩
  case run =>
    unfold body wrote owns
    simp only [cc0__fused_logp_kernel_eq_skeleton]; unfold cc0__fused_logp_kernel_skel
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := a.h2.eq_unread hf0; obtain rfl := a.h3.eq_unread hf1; obtain rfl := a.h4.eq_unread hf2; obtain rfl := a.h5.eq_unread hf3; obtain rfl := a.h6.eq_unread hf4; obtain rfl := a.h7.eq_unread hf5
    sl_exec (disch := first | exact hc0 | exact hc1)
    sl_step
    iapply Hk
    isplitl [H0]
    · iexists _; isplitr; · ipureintro; exact a.h2.read_unread _
      iexact H0
    isplitl [H1]
    · iexists _; isplitr; · ipureintro; exact a.h3.read_unread _
      iexact H1
    isplitl [H2]
    · iexists _; isplitr; · ipureintro; exact a.h4.read_unread _
      iexact H2
    isplitl [H3]
    · iexists _; isplitr; · ipureintro; exact a.h5.read_unread _
      iexact H3
    isplitl [H4]
    · iexists _; isplitr; · ipureintro; exact a.h6.read_unread _
      iexact H4
    isplitl [H5]
    · iexists _; isplitr; · ipureintro; exact a.h7.read_unread _
      iexact H5
    isplitl [HS0]; · iexists _; iexact HS0
    isplitl [HS1]; · iexists _; iexact HS1
    iexists _; iexact HS2

end Cert.KernelIdeal.Fr

end
-- ==== Proof.KIRunB.lean ====
import proofs.«419790_j22101901705594_3_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a middle chunk: the carried rows are read at what the chunk before left and stored anew; the output column is not touched. -/
noncomputable def kernelRun0_B (c : Dev nD) (i : grid0.Coords) (a : Args) (hc0 : ¬cond0_0 i) (hc1 : ¬cond0_1 i) (x : Ins F) (xs : Col F × Col F × Col F) :
    Σ' (L5 LS0 LS1 : Pcs F), { LS2 : Pcs F //
      ∀ (xi5 : Col F) (E : Set ℕ) (K : PUnit → sProp 𝕄),
        iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ owns (c : Thread nD τ) a.a7 fullShare xi5 ∗ owns (c : Thread nD τ) a.a8 fullShare xs.1 ∗ owns (c : Thread nD τ) a.a9 fullShare xs.2.1 ∗ owns (c : Thread nD τ) a.a10 fullShare xs.2.2
            ∗ (iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ owns (c : Thread nD τ) a.a7 fullShare xi5 ∗ wrote c a.a8 LS0 ∗ wrote c a.a9 LS1 ∗ wrote c a.a10 LS2) -∗ K ⟨⟩))
          ⊢ wp frame (wpE (defs₀ (F := F)) Variants.none c none) E (body i a) K } := by
  refine ⟨[], ?_, ?_, ?_, fun xi5 E K => ?run⟩
  case run =>
    unfold body wrote owns
    simp only [cc0__fused_logp_kernel_eq_skeleton]; unfold cc0__fused_logp_kernel_skel
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := a.h2.eq_unread hf0; obtain rfl := a.h3.eq_unread hf1; obtain rfl := a.h4.eq_unread hf2; obtain rfl := a.h5.eq_unread hf3; obtain rfl := a.h6.eq_unread hf4; obtain rfl := a.h7.eq_unread hf5
    obtain rfl := a.h8.eq_unread hfs0; obtain rfl := a.h9.eq_unread hfs1; obtain rfl := a.h10.eq_unread hfs2
    sl_exec (disch := first | exact hc0 | exact hc1)
    sl_step
    iapply Hk
    isplitl [H0]
    · iexists _; isplitr; · ipureintro; exact a.h2.read_unread _
      iexact H0
    isplitl [H1]
    · iexists _; isplitr; · ipureintro; exact a.h3.read_unread _
      iexact H1
    isplitl [H2]
    · iexists _; isplitr; · ipureintro; exact a.h4.read_unread _
      iexact H2
    isplitl [H3]
    · iexists _; isplitr; · ipureintro; exact a.h5.read_unread _
      iexact H3
    isplitl [H4]
    · iexists _; isplitr; · ipureintro; exact a.h6.read_unread _
      iexact H4
    isplitl [H5]
    · iexists _; isplitr; · ipureintro; exact a.h7.read_unread _
      iexact H5
    isplitl [HS0]; · iexists _; iexact HS0
    isplitl [HS1]; · iexists _; iexact HS1
    iexists _; iexact HS2

end Cert.KernelIdeal.Fr

end
-- ==== Proof.KIRunC.lean ====
import proofs.«419790_j22101901705594_3_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a last chunk of a row block: as at a middle chunk, and the output column, at anything before, is stored whole. -/
noncomputable def kernelRun0_C (c : Dev nD) (i : grid0.Coords) (a : Args) (hc0 : ¬cond0_0 i) (hc1 : cond0_1 i) (x : Ins F) (xs : Col F × Col F × Col F) :
    Σ' (L5 LS0 LS1 : Pcs F), { LS2 : Pcs F //
      ∀ (E : Set ℕ) (K : PUnit → sProp 𝕄),
        iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ (∃ d, owns (c : Thread nD τ) a.a7 fullShare d) ∗ owns (c : Thread nD τ) a.a8 fullShare xs.1 ∗ owns (c : Thread nD τ) a.a9 fullShare xs.2.1 ∗ owns (c : Thread nD τ) a.a10 fullShare xs.2.2
            ∗ (iprop(owns (c : Thread nD τ) a.a2 fullShare x.x0 ∗ owns (c : Thread nD τ) a.a3 fullShare x.x1 ∗ owns (c : Thread nD τ) a.a4 fullShare x.x2 ∗ owns (c : Thread nD τ) a.a5 fullShare x.x3 ∗ owns (c : Thread nD τ) a.a6 fullShare x.x4 ∗ wrote c a.a7 L5 ∗ wrote c a.a8 LS0 ∗ wrote c a.a9 LS1 ∗ wrote c a.a10 LS2) -∗ K ⟨⟩))
          ⊢ wp frame (wpE (defs₀ (F := F)) Variants.none c none) E (body i a) K } := by
  refine ⟨?_, ?_, ?_, ?_, fun E K => ?run⟩
  case run =>
    unfold body wrote owns
    simp only [cc0__fused_logp_kernel_eq_skeleton]; unfold cc0__fused_logp_kernel_skel
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := a.h2.eq_unread hf0; obtain rfl := a.h3.eq_unread hf1; obtain rfl := a.h4.eq_unread hf2; obtain rfl := a.h5.eq_unread hf3; obtain rfl := a.h6.eq_unread hf4
    obtain rfl := a.h8.eq_unread hfs0; obtain rfl := a.h9.eq_unread hfs1; obtain rfl := a.h10.eq_unread hfs2
    sl_exec (disch := first | exact hc0 | exact hc1)
    sl_step
    iapply Hk
    isplitl [H0]
    · iexists _; isplitr; · ipureintro; exact a.h2.read_unread _
      iexact H0
    isplitl [H1]
    · iexists _; isplitr; · ipureintro; exact a.h3.read_unread _
      iexact H1
    isplitl [H2]
    · iexists _; isplitr; · ipureintro; exact a.h4.read_unread _
      iexact H2
    isplitl [H3]
    · iexists _; isplitr; · ipureintro; exact a.h5.read_unread _
      iexact H3
    isplitl [H4]
    · iexists _; isplitr; · ipureintro; exact a.h6.read_unread _
      iexact H4
    isplitl [H5]; · iexists _; iexact H5
    isplitl [HS0]; · iexists _; iexact HS0
    isplitl [HS1]; · iexists _; iexact HS1
    iexists _; iexact HS2

end Cert.KernelIdeal.Fr

end
-- ==== Proof.KIData.lean ====
import proofs.«419790_j22101901705594_3_alg».proof.Proof.KIRunA
import proofs.«419790_j22101901705594_3_alg».proof.Proof.KIRunB
import proofs.«419790_j22101901705594_3_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Tiles (L : Pcs F) : Prop := ∀ y : S1024x1.Idx, ∃ pc ∈ L, y ∈ pc.1.set

/-- Stores that tile a column leave the column their pieces describe, whatever it held before. -/
theorem owns_of_wrote (c : Dev nD) (v : Memref sig .tc .vmem S1024x1 .f32) (L : Pcs F) (h : Tiles L) :
    (wrote c v L : sProp 𝕄) ⊢ owns (c : Thread nD τ) v fullShare (View.canon L) := by
  unfold wrote owns
  iintro ⟨%f, H⟩
  iexists _; isplitr; swap; · iexact H
  ipureintro; exact View.read_writes_eq_canon _ _ _ h

section Point

variable (c : Dev nD) (i : grid0.Coords) (a : Args) (x : Ins F) (xs : Col F × Col F × Col F)

theorem coverA (hc0 : cond0_0 i) (hc1 : ¬cond0_1 i) :
    Tiles (kernelRun0_A c i a hc0 hc1 x).2.1 ∧ Tiles (kernelRun0_A c i a hc0 hc1 x).2.2.1 ∧ Tiles (kernelRun0_A c i a hc0 hc1 x).2.2.2.1 :=
  ⟨View.cover_of_tiledL _ S1024x1.size (by sl_kernel_rfl), View.cover_of_tiledL _ S1024x1.size (by sl_kernel_rfl), View.cover_of_tiledL _ S1024x1.size (by sl_kernel_rfl)⟩

theorem coverB (hc0 : ¬cond0_0 i) (hc1 : ¬cond0_1 i) :
    Tiles (kernelRun0_B c i a hc0 hc1 x xs).2.1 ∧ Tiles (kernelRun0_B c i a hc0 hc1 x xs).2.2.1 ∧ Tiles (kernelRun0_B c i a hc0 hc1 x xs).2.2.2.1 :=
  ⟨View.cover_of_tiledL _ S1024x1.size (by sl_kernel_rfl), View.cover_of_tiledL _ S1024x1.size (by sl_kernel_rfl), View.cover_of_tiledL _ S1024x1.size (by sl_kernel_rfl)⟩

theorem coverC (hc0 : ¬cond0_0 i) (hc1 : cond0_1 i) :
    Tiles (kernelRun0_C c i a hc0 hc1 x xs).1 ∧ Tiles (kernelRun0_C c i a hc0 hc1 x xs).2.1 ∧ Tiles (kernelRun0_C c i a hc0 hc1 x xs).2.2.1 ∧ Tiles (kernelRun0_C c i a hc0 hc1 x xs).2.2.2.1 :=
  ⟨View.cover_of_tiledL _ S1024x1.size (by sl_kernel_rfl), View.cover_of_tiledL _ S1024x1.size (by sl_kernel_rfl), View.cover_of_tiledL _ S1024x1.size (by sl_kernel_rfl), View.cover_of_tiledL _ S1024x1.size (by sl_kernel_rfl)⟩

end Point

/-- The four piece lists of a run (output column, then the three carried rows), each read back as one column. -/
def canons {Q : Pcs F → Pcs F → Pcs F → Pcs F → Prop}
    (r : Σ' (L5 LS0 LS1 : Pcs F), { LS2 : Pcs F // Q L5 LS0 LS1 LS2 }) : Col F × Col F × Col F × Col F :=
  (View.canon r.1, View.canon r.2.1, View.canon r.2.2.1, View.canon r.2.2.2.1)

/-- The output column and the carried rows after position `n`: a first chunk of a row block starts from nothing, every other chunk from the rows the chunk before left. -/
def outsAt0 (c : Dev nD) : (n : ℕ) → n < cfg0.N → Col F × Col F × Col F × Col F
  | 0, hn => canons (kernelRun0_A c (grid0.coords ⟨0, hn⟩) (argsAt ⟨0, hn⟩) ((hcond0_0 ⟨0, hn⟩).mpr (Nat.zero_mod _))
      ((hcond0_1 ⟨0, hn⟩).not.mpr (by dsimp only; omega)) (blks m c ⟨0, hn⟩))
  | n + 1, hn =>
    if h0 : (n + 1) % 50 = 0 then
      canons (kernelRun0_A c (grid0.coords ⟨n + 1, hn⟩) (argsAt ⟨n + 1, hn⟩) ((hcond0_0 ⟨n + 1, hn⟩).mpr h0)
        ((hcond0_1 ⟨n + 1, hn⟩).not.mpr (by dsimp only; omega)) (blks m c ⟨n + 1, hn⟩))
    else if h1 : (n + 1) % 50 = 49 then
      canons (kernelRun0_C c (grid0.coords ⟨n + 1, hn⟩) (argsAt ⟨n + 1, hn⟩) ((hcond0_0 ⟨n + 1, hn⟩).not.mpr h0)
        ((hcond0_1 ⟨n + 1, hn⟩).mpr h1) (blks m c ⟨n + 1, hn⟩) (outsAt0 c n (Nat.lt_of_succ_lt hn)).2)
    else
      canons (kernelRun0_B c (grid0.coords ⟨n + 1, hn⟩) (argsAt ⟨n + 1, hn⟩) ((hcond0_0 ⟨n + 1, hn⟩).not.mpr h0)
        ((hcond0_1 ⟨n + 1, hn⟩).not.mpr h1) (blks m c ⟨n + 1, hn⟩) (outsAt0 c n (Nat.lt_of_succ_lt hn)).2)

theorem outsAt0_A (c : Dev nD) (t : Fin cfg0.N) (h0 : t.val % 50 = 0) (h1 : ¬t.val % 50 = 49) :
    outsAt0 m c t.val t.isLt = canons (kernelRun0_A c (grid0.coords t) (argsAt t) ((hcond0_0 t).mpr h0) ((hcond0_1 t).not.mpr h1) (blks m c t)) := by
  obtain ⟨n, hn⟩ := t
  cases n with
  | zero => rfl
  | succ n => exact dif_pos h0

theorem outsAt0_B (c : Dev nD) (t : Fin cfg0.N) (h0 : ¬t.val % 50 = 0) (h1 : ¬t.val % 50 = 49) :
    outsAt0 m c t.val t.isLt = canons (kernelRun0_B c (grid0.coords t) (argsAt t) ((hcond0_0 t).not.mpr h0) ((hcond0_1 t).not.mpr h1) (blks m c t)
      (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 50 = 0) (h1 : t.val % 50 = 49) :
    outsAt0 m c t.val t.isLt = canons (kernelRun0_C c (grid0.coords t) (argsAt t) ((hcond0_0 t).not.mpr h0) ((hcond0_1 t).mpr h1) (blks m c t)
      (outsAt0 m c (t.val - 1) (Nat.lt_of_le_of_lt (Nat.sub_le _ _) t.isLt)).2) := by
  obtain ⟨n, hn⟩ := t
  cases n with
  | zero => exact absurd (Nat.zero_mod _) h0
  | succ n => exact (dif_neg h0).trans (dif_pos h1)

/-- The three carried rows at given contents. -/
abbrev rows (c : Dev nD) (s : Col F × Col F × Col F) : sProp 𝕄 :=
  iprop(owns (c : Thread nD τ) scM0_0 fullShare s.1 ∗ owns (c : Thread nD τ) scM0_1 fullShare s.2.1 ∗ owns (c : Thread nD τ) scM0_2 fullShare s.2.2)

/-- Between positions: at the start the carried rows hold anything, after position `n` they hold `outsAt0`'s rows at `n`. -/
def PhiS (c : Dev nD) : (n : ℕ) → n ≤ cfg0.N → sProp 𝕄
  | 0, _ => Pipeline.ΦA spec0 c
  | n + 1, hn => iprop(rows c (outsAt0 m c n hn).2 ∗ (∃ r, prngReg c r))

theorem PhiS_pos (c : Dev nD) (n : ℕ) (h : n ≤ cfg0.N) (hz : n ≠ 0) :
    PhiS m c n h = iprop(rows c (outsAt0 m c (n - 1) (by omega)).2 ∗ (∃ r, prngReg c r)) := by
  cases n with
  | zero => exact absurd rfl hz
  | succ n => rfl

/-- Forgetting what the carried rows hold. -/
theorem PhiS_out (c : Dev nD) (n : ℕ) (h : n ≤ cfg0.N) : PhiS m c n h ⊢ anyRows c := by
  cases n with
  | zero => rw [← PhiA0_eq]; exact .rfl
  | succ n =>
    show iprop(rows c (outsAt0 m c n h).2 ∗ (∃ r, prngReg c r)) ⊢ _
    iintro ⟨⟨HS0, HS1, HS2⟩, Hg⟩
    isplitl [HS0 HS1 HS2]
    · isplitl [HS0]; · iexists _; iexact HS0
      isplitl [HS1]; · iexists _; iexact HS1
      iexists _; iexact HS2
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem after0_5 (c : Dev nD) (t : Fin cfg0.N) : (dats m 0 c).after 5 t = (outsAt0 m c t.val t.isLt).1 := rfl

/-- Each input is found at its block of the array, at every grid point. -/
theorem before_of {c : Dev nD} (dat : Dat τ (Elt F) Unit ℕ (UR sig nD τ) ℕ cfg0 c) (hA : ∀ w, dat.A w = V m c (Pipeline.arrRef spec0 w))
    (h0 : ∀ t, dat.after 0 t = iblk m c 0 t) (h1 : ∀ t, dat.after 1 t = iblk m c 1 t) (h2 : ∀ t, dat.after 2 t = iblk m c 2 t)
    (h3 : ∀ t, dat.after 3 t = iblk m c 3 t) (h4 : ∀ t, dat.after 4 t = iblk m c 4 t) (t : Fin cfg0.N) :
    (∀ d, dat.before 0 t d = iblk m c 0 t) ∧ (∀ d, dat.before 1 t d = iblk m c 1 t) ∧ (∀ d, dat.before 2 t d = iblk m c 2 t)
      ∧ (∀ d, dat.before 3 t d = iblk m c 3 t) ∧ (∀ d, dat.before 4 t d = iblk m c 4 t) := by
  have hblk : ∀ w t, dat.blockOf w t = iblk m c w t := fun w t => by unfold Dat.blockOf iblk; rw [hA]
  refine ⟨fun d => ?_, fun d => ?_, fun d => ?_, fun d => ?_, fun d => ?_⟩ <;>
    (rw [dat.before_in_eq_fetched _ rfl (fun _ => rfl) (fun _ _ _ => rfl)
        (fun t => by first | rw [h0, hblk] | rw [h1, hblk] | rw [h2, hblk] | rw [h3, hblk] | rw [h4, hblk]) t d]
     unfold Dat.fetched
     rw [hblk]; rfl)

theorem before0 (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t)
      ∧ (∀ d, (dats m 0 c).before 4 t d = iblk m c 4 t) :=
  by
  refine before_of m (dats m 0 c) ?_ ?_ ?_ ?_ ?_ ?_ t <;> intro _ <;> dsimp only [dats]

theorem leaves0 (c : Dev nD) (t : Fin cfg0.N) :
    (dats m 0 c).leavesExact 0 t = owns (c : Thread nD τ) (argsAt t).a2 fullShare (iblk m c 0 t)
    ∧ (dats m 0 c).leavesExact 1 t = owns (c : Thread nD τ) (argsAt t).a3 fullShare (iblk m c 1 t)
    ∧ (dats m 0 c).leavesExact 2 t = owns (c : Thread nD τ) (argsAt t).a4 fullShare (iblk m c 2 t)
    ∧ (dats m 0 c).leavesExact 3 t = owns (c : Thread nD τ) (argsAt t).a5 fullShare (iblk m c 3 t)
    ∧ (dats m 0 c).leavesExact 4 t = owns (c : Thread nD τ) (argsAt t).a6 fullShare (iblk m c 4 t) :=
  ⟨rfl, rfl, rfl, rfl, rfl⟩

end Cert.KernelIdeal.Fr

end
-- ==== Proof.KIFrame.lean ====
import proofs.«419790_j22101901705594_3_alg».proof.Proof.KIData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (argsAt t).a2 fullShare ((dats m 0 c).before 0 t d))
    ∗ (∃ d, owns (c : Thread nD τ) (argsAt t).a3 fullShare ((dats m 0 c).before 1 t d))
    ∗ (∃ d, owns (c : Thread nD τ) (argsAt t).a4 fullShare ((dats m 0 c).before 2 t d))
    ∗ (∃ d, owns (c : Thread nD τ) (argsAt t).a5 fullShare ((dats m 0 c).before 3 t d))
    ∗ (∃ d, owns (c : Thread nD τ) (argsAt t).a6 fullShare ((dats m 0 c).before 4 t d))
    ∗ (∃ d, owns (c : Thread nD τ) (argsAt t).a7 fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
/-- The body at any grid point: the carried rows come back at this point's values because the stores into each tile it, and so does the output column at a last chunk. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  obtain ⟨b0, b1, b2, b3, b4⟩ := before0 m c t
  obtain ⟨l0, l1, l2, l3, l4⟩ := leaves0 m c t
  simp only [b0, b1, b2, b3, b4]
  rw [l0, l1, l2, l3, l4, show (dats m 0 c).owesAt () t.succ = (dats m 0 c).owesAt () t.castSucc from rfl,
    show (dats m 0 c).Φ t.succ = iprop(rows c (outsAt0 m c t.val t.isLt).2 ∗ (∃ r, prngReg c r)) from rfl,
    show (dats m 0 c).Φ t.castSucc = PhiS m c t.val (Nat.le_of_lt t.isLt) from rfl]
  have hN : t.val < 200 := lt_of_lt_of_eq t.isLt (show cfg0.N = 200 from N_0)
  by_cases h0 : t.val % 50 = 0
  · have h1 : ¬t.val % 50 = 49 := by omega
    rw [Dat.leavesExact_idle (dats m 0 c) 5 t (idleAt0_5 t h1).1 (idleAt0_5 t h1).2, outsAt0_A m c t h0 h1]
    dsimp only [canons]
    iintro ⟨HP, Ho, ⟨%d0, H0⟩, ⟨%d1, H1⟩, ⟨%d2, H2⟩, ⟨%d3, H3⟩, ⟨%d4, H4⟩, ⟨%d5, H5⟩⟩
    ihave ⟨⟨HS0, HS1, HS2⟩, Hg⟩ := (PhiS_out m c _ _) $$ HP
    iapply ((kernelRun0_A c (grid0.coords t) (argsAt t) ((hcond0_0 t).mpr h0) ((hcond0_1 t).not.mpr h1) (blks m c t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    have hcov := coverA c (grid0.coords t) (argsAt t) (blks m c t) ((hcond0_0 t).mpr h0) ((hcond0_1 t).not.mpr h1)
    ihave HS0 := (owns_of_wrote c _ _ hcov.1) $$ HS0
    ihave HS1 := (owns_of_wrote c _ _ hcov.2.1) $$ HS1
    ihave HS2 := (owns_of_wrote c _ _ hcov.2.2) $$ HS2
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [PhiS_pos m c _ _ (fun hz => h0 (by rw [hz]))]
    by_cases h1 : t.val % 50 = 49
    · rw [show (dats m 0 c).leavesExact 5 t = owns (c : Thread nD τ) (argsAt t).a7 fullShare ((dats m 0 c).after 5 t) from by
        unfold Dat.leavesExact; rw [liveAt0_5 t h1], after0_5, outsAt0_C m c t h0 h1]
      dsimp only [canons]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (argsAt t) ((hcond0_0 t).not.mpr h0) ((hcond0_1 t).mpr h1) (blks m c t) (outsAt0 m c (t.val - 1) (by omega)).2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      have hcov := coverC c (grid0.coords t) (argsAt t) (blks m c t) (outsAt0 m c (t.val - 1) (by omega)).2 ((hcond0_0 t).not.mpr h0) ((hcond0_1 t).mpr h1)
      ihave H5 := (owns_of_wrote c _ _ hcov.1) $$ H5
      ihave HS0 := (owns_of_wrote c _ _ hcov.2.1) $$ HS0
      ihave HS1 := (owns_of_wrote c _ _ hcov.2.2.1) $$ HS1
      ihave HS2 := (owns_of_wrote c _ _ hcov.2.2.2) $$ HS2
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (idleAt0_5 t h1).1 (idleAt0_5 t h1).2, outsAt0_B m c t h0 h1]
      dsimp only [canons]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (argsAt t) ((hcond0_0 t).not.mpr h0) ((hcond0_1 t).not.mpr h1) (blks m c t) (outsAt0 m c (t.val - 1) (by omega)).2).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      have hcov := coverB c (grid0.coords t) (argsAt t) (blks m c t) (outsAt0 m c (t.val - 1) (by omega)).2 ((hcond0_0 t).not.mpr h0) ((hcond0_1 t).not.mpr h1)
      ihave HS0 := (owns_of_wrote c _ _ hcov.1) $$ HS0
      ihave HS1 := (owns_of_wrote c _ _ hcov.2.1) $$ HS1
      ihave HS2 := (owns_of_wrote c _ _ hcov.2.2) $$ HS2
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution from zero counters terminates; the region's arrays end as the accumulation says and every other buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := fun _ _ => rfl) (hin := fun _ => .rfl)
    (hout := fun c => by rw [PhiA0_eq]; exact (PhiS_out m c _ (Nat.le_refl _) : PhiS m c (Fin.last cfg0.N).val _ ⊢ _))

/-- The program runs to completion and its four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨arg_kept m (dats m) c (by decide) r hr, arg_kept m (dats m) c (by decide) r hr,
    arg_kept m (dats m) c (by decide) r hr, arg_kept m (dats m) c (by decide) r hr⟩) (run_main m ρ)

end Cert.KernelIdeal.Fr

end
-- ==== Proof.KIPay.lean ====
import proofs.«419790_j22101901705594_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx
open scoped BigOperators

theorem lhs_0 (j : S1024x640.Idx) (k : dot_S1024x2048_S640x2048_S1024x640_1_1_0_0_n_n.contr.Idx) :
    (dot_S1024x2048_S640x2048_S1024x640_1_1_0_0_n_n.lhsIdx j k 0 : ℕ) = j 0 := by
  simp [DotDims.lhsIdx, dot_S1024x2048_S640x2048_S1024x640_1_1_0_0_n_n]; rfl
theorem lhs_1 (j : S1024x640.Idx) (k : dot_S1024x2048_S640x2048_S1024x640_1_1_0_0_n_n.contr.Idx) :
    (dot_S1024x2048_S640x2048_S1024x640_1_1_0_0_n_n.lhsIdx j k 1 : ℕ) = k ⟨0, by decide⟩ := by
  simp [DotDims.lhsIdx, dot_S1024x2048_S640x2048_S1024x640_1_1_0_0_n_n]; rfl
theorem rhs_0 (j : S1024x640.Idx) (k : dot_S1024x2048_S640x2048_S1024x640_1_1_0_0_n_n.contr.Idx) :
    (dot_S1024x2048_S640x2048_S1024x640_1_1_0_0_n_n.rhsIdx j k 0 : ℕ) = j 1 := by
  simp [DotDims.rhsIdx, dot_S1024x2048_S640x2048_S1024x640_1_1_0_0_n_n]; rfl
theorem rhs_1 (j : S1024x640.Idx) (k : dot_S1024x2048_S640x2048_S1024x640_1_1_0_0_n_n.contr.Idx) :
    (dot_S1024x2048_S640x2048_S1024x640_1_1_0_0_n_n.rhsIdx j k 1 : ℕ) = k ⟨0, by decide⟩ := by
  simp [DotDims.rhsIdx, dot_S1024x2048_S640x2048_S1024x640_1_1_0_0_n_n]; rfl

def hid : dot_S1024x2048_S640x2048_S1024x640_1_1_0_0_n_n.contr.Idx ≃ Fin 2048 :=
  contrEquiv1 dot_S1024x2048_S640x2048_S1024x640_1_1_0_0_n_n 2048 rfl rfl

theorem hid_symm_val (h : Fin 2048) : ((hid.symm h) ⟨0, by decide⟩ : ℕ) = h.val :=
  contrEquiv1_symm_val dot_S1024x2048_S640x2048_S1024x640_1_1_0_0_n_n 2048 rfl rfl h

/-- Entry (p, q) of a chunk of logits: row p of the activations against row q of the weights, plus bias q. -/
theorem pay8_apply (x0 : Vec Ideal S1024x2048 .bf16) (x1 : Vec Ideal S640x2048 .bf16) (x2 : Vec Ideal S1x640 .f32)
    (p : Fin 1024) (q : Fin 640) :
    k0_pay8 (F := Ideal) x0 x1 x2 (ix2 p q) = (∑ h : Fin 2048, x0 (ix2 p h) * x1 (ix2 q h)) + x2 (ix2 0 q) := by
  unfold k0_pay8
  rw [addf_apply, shapeCast_self, shapeCast_self, shapeCast_self, broadcastTo_1b_ab_apply]
  refine congrArg (· + x2 (ix2 0 q)) ?_
  refine (Ideal.matmul_constant_zero_apply (φ₁ := .bf16) (φ₂ := .bf16) dot_S1024x2048_S640x2048_S1024x640_1_1_0_0_n_n none x0 x1 (ix2 p q)).trans ?_
  rw [← Equiv.sum_comp hid.symm]
  refine Finset.sum_congr rfl fun h _ => ?_
  congr 2
  · apply Shape.idx_ext₂
    · rw [lhs_0]
    · rw [lhs_1, hid_symm_val]
  · apply Shape.idx_ext₂
    · rw [rhs_0]
    · rw [rhs_1, hid_symm_val]

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lift_row (p : Fin 1024) (q : Fin 640) : reduces_S1024x640_S1024.lift (ix1 p) q = ix2 p q := by
  funext c
  match c with
  | ⟨0, _⟩ => exact Fin.ext rfl
  | ⟨1, _⟩ => exact Fin.ext rfl

theorem ofBits_neg_inf_f32 : Ideal.ofBits .f32 0xFF800000#32 = ⊥ := by
  simp [Ideal.ofBits, Ideal.ieee]

theorem laneSum_apply (src : FVec Ideal S1024x640 .f32) (hacc : (0x00000000#32 : BitVec 32) = 0x00000000#32) (p : Fin 1024) :
    multiReduction .add [1] S1024 src 0x00000000#32 reduces_S1024x640_S1024 (.inl rfl) hacc (ix1 p)
      = ∑ q : Fin 640, src (ix2 p q) :=
  (Ideal.multiReduction_add_single src 0x00000000#32 reduces_S1024x640_S1024 (.inl rfl) hacc (ix1 p)).trans
    (Finset.sum_congr rfl fun q _ => congrArg src (lift_row p q))

theorem laneMax_apply (src : FVec Ideal S1024x640 .f32) (hacc : (0xFF800000#32 : BitVec 32) = 0xFF800000#32) (p : Fin 1024) :
    multiReduction .maximumf [1] S1024 src 0xFF800000#32 reduces_S1024x640_S1024 (.inl rfl) hacc (ix1 p)
      = Finset.univ.fold max ⊥ fun q : Fin 640 => src (ix2 p q) := by
  refine (Ideal.multiReduction_maximumf_single src 0xFF800000#32 reduces_S1024x640_S1024 (.inl rfl) hacc (ix1 p)).trans ?_
  show Finset.univ.fold max (Ideal.ofBits .f32 0xFF800000#32) _ = _
  rw [ofBits_neg_inf_f32]
  exact congrArg (Finset.univ.fold max ⊥) (funext fun q => congrArg src (lift_row p q))

/-- The new running maximum is the larger of the old one and the chunk's row maximum. -/
theorem pay9_apply (x0 : Vec Ideal S1024x2048 .bf16) (x1 : Vec Ideal S640x2048 .bf16) (x2 : Vec Ideal S1x640 .f32)
    (m0 : Vec Ideal S1024x1 .f32) (p : Fin 1024) :
    k0_pay9 (F := Ideal) x0 x1 x2 m0 (ix2 p 0)
      = max (m0 (ix2 p 0)) (Finset.univ.fold max ⊥ fun q : Fin 640 => k0_pay8 (F := Ideal) x0 x1 x2 (ix2 p q)) := by
  unfold k0_pay9
  rw [maximumf_apply, shapeCast_a_a1_apply]
  exact congrArg (max (m0 (ix2 p 0))) (laneMax_apply (k0_pay8 (F := Ideal) x0 x1 x2) rfl p)

/-- The new normaliser is the old one rescaled to the new maximum, plus the chunk's exponentials. -/
theorem pay10_apply (x0 : Vec Ideal S1024x2048 .bf16) (x1 : Vec Ideal S640x2048 .bf16) (x2 : Vec Ideal S1x640 .f32)
    (m0 l0 : Vec Ideal S1024x1 .f32) (p : Fin 1024) :
    k0_pay10 (F := Ideal) x0 x1 x2 m0 l0 (ix2 p 0)
      = l0 (ix2 p 0) * Ideal.exp (m0 (ix2 p 0) - k0_pay9 (F := Ideal) x0 x1 x2 m0 (ix2 p 0))
        + ∑ q : Fin 640, Ideal.exp (k0_pay8 (F := Ideal) x0 x1 x2 (ix2 p q) - k0_pay9 (F := Ideal) x0 x1 x2 m0 (ix2 p 0)) := by
  unfold k0_pay10
  rw [addf_apply, mulf_apply, shapeCast_a_a1_apply]
  refine congrArg₂ (· + ·) rfl ?_
  refine (laneSum_apply _ rfl p).trans (Finset.sum_congr rfl fun q _ => ?_)
  show Ideal.exp (k0_pay8 (F := Ideal) x0 x1 x2 (ix2 p q)
      - broadcastTo S1024x640 (k0_pay9 (F := Ideal) x0 x1 x2 m0) broadcasts_S1024x1_S1024x640 (ix2 p q)) = _
  rw [broadcastTo_a1_ab_apply]

theorem select_eq_word {α : Type} (a b : BitVec 32) (X Y : α) :
    Scalar.select (IntOp.cmpi .eq a b) X Y = if a = b then X else Y := by
  unfold Scalar.select IntOp.cmpi
  by_cases h : a = b
  · subst h; simp
  · have hb : (a == b) = false := by simpa using h
    simp [hb, h]

theorem pay11_apply (i : grid0.Coords) (x0 : Vec Ideal S1024x2048 .bf16) (x1 : Vec Ideal S640x2048 .bf16)
    (x2 : Vec Ideal S1x640 .f32) (lab : Vec Ideal S1024x1 .i32) (p : Fin 1024) :
    k0_pay11 (F := Ideal) i x0 x1 x2 lab (ix1 p)
      = ∑ q : Fin 640, (if BitVec.ofNat 32 q.val = lab (ix2 p 0) - BitVec.ofNat 32 (i 1).val * 640#32
          then k0_pay8 (F := Ideal) x0 x1 x2 (ix2 p q) else 0) := by
  unfold k0_pay11
  refine (laneSum_apply _ rfl p).trans (Finset.sum_congr rfl fun q _ => ?_)
  show Scalar.select (IntOp.cmpi .eq (iota .tc S1024x640 32 [1] iota_S1024x640_d1_w32 (ix2 p q))
        (broadcastTo S1024x640 (subi (shapeCast S1024x1 lab shapeCasts_S1024x1_S1024x1)
          (broadcast S1024x1 (Scalar.muli (BitVec.ofNat 32 (i 1).val) 640#32))) broadcasts_S1024x1_S1024x640 (ix2 p q)))
      (k0_pay8 (F := Ideal) x0 x1 x2 (ix2 p q)) (Ideal.ofBits .f32 0x00000000#32) = _
  rw [iota_single_apply, broadcastTo_a1_ab_apply, shapeCast_self, Ideal.ofBits_zero_f32]
  show Scalar.select (IntOp.cmpi .eq (BitVec.ofNat 32 q.val) (lab (ix2 p 0) - BitVec.ofNat 32 (i 1).val * 640#32)) _ _ = _
  exact select_eq_word _ _ _ _

theorem word_hit (v q0 q : ℕ) (hv : v < 50) (hq0 : q0 < 640) (hq : q < 640) :
    (BitVec.ofNat 32 q = BitVec.ofNat 32 (640 * v + q0) - BitVec.ofNat 32 v * 640#32) ↔ q = q0 := by
  constructor
  · intro h; bv_omega
  · rintro rfl; bv_omega

theorem word_miss (L : BitVec 32) (v q : ℕ) (hv : v < 50) (hq : q < 640) (hlt : L.toNat < 32000)
    (hne : L.toNat / 640 ≠ v) : BitVec.ofNat 32 q ≠ L - BitVec.ofNat 32 v * 640#32 := by
  intro h
  have hL : L = BitVec.ofNat 32 q + BitVec.ofNat 32 v * 640#32 := by rw [h, BitVec.sub_add_cancel]
  have hn : L.toNat = q + 640 * v := by
    rw [hL, BitVec.toNat_add, BitVec.toNat_mul, BitVec.toNat_ofNat, BitVec.toNat_ofNat, BitVec.toNat_ofNat]
    omega
  exact hne (by rw [hn]; omega)

/-- The label's score is picked in the chunk that holds the label. -/
theorem pay11_hit (i : grid0.Coords) (x0 : Vec Ideal S1024x2048 .bf16) (x1 : Vec Ideal S640x2048 .bf16)
    (x2 : Vec Ideal S1x640 .f32) (lab : Vec Ideal S1024x1 .i32) (p : Fin 1024) (q0 : Fin 640)
    (hl : lab (ix2 p 0) = BitVec.ofNat 32 (640 * (i 1).val + q0.val)) :
    k0_pay11 (F := Ideal) i x0 x1 x2 lab (ix1 p) = k0_pay8 (F := Ideal) x0 x1 x2 (ix2 p q0) := by
  have hv : (i 1).val < 50 := (i 1).isLt
  rw [pay11_apply, hl, Finset.sum_eq_single q0]
  · rw [if_pos ((word_hit _ _ _ hv q0.isLt q0.isLt).mpr rfl)]
  · intro q _ hq
    rw [if_neg]
    intro h
    exact hq (Fin.ext ((word_hit _ _ _ hv q0.isLt q.isLt).mp h))
  · intro h; exact absurd (Finset.mem_univ _) h

/-- Every other chunk contributes zero. -/
theorem pay11_miss (i : grid0.Coords) (x0 : Vec Ideal S1024x2048 .bf16) (x1 : Vec Ideal S640x2048 .bf16)
    (x2 : Vec Ideal S1x640 .f32) (lab : Vec Ideal S1024x1 .i32) (p : Fin 1024)
    (hlt : (lab (ix2 p 0)).toNat < 32000) (hne : (lab (ix2 p 0)).toNat / 640 ≠ (i 1).val) :
    k0_pay11 (F := Ideal) i x0 x1 x2 lab (ix1 p) = 0 := by
  have hv : (i 1).val < 50 := (i 1).isLt
  rw [pay11_apply]
  exact Finset.sum_eq_zero fun q _ => if_neg (word_miss _ _ _ hv q.isLt hlt hne)

theorem pay3_apply (v36 : FVec Ideal S1024 .f32) (t0 : Vec Ideal S1024x1 .f32) (p : Fin 1024) :
    k0_pay3 (F := Ideal) v36 t0 (ix2 p 0) = t0 (ix2 p 0) + v36 (ix1 p) := by
  unfold k0_pay3
  rw [shapeCast_self, addf_apply, shapeCast_a_a1_apply]

/-- The closing formula: (picked score − maximum − log normaliser) · mask. -/
theorem pay4_apply (mm ll tt kk : Vec Ideal S1024x1 .f32) (p : Fin 1024) :
    k0_pay4 (F := Ideal) mm ll tt kk (ix2 p 0)
      = (tt (ix2 p 0) - (mm (ix2 p 0) + Ideal.log (ll (ix2 p 0)))) * kk (ix2 p 0) := by
  unfold k0_pay4
  rw [mulf_apply, subf_apply, addf_apply, shapeCast_self]
  rfl

theorem pay1_eq (v : FVec Ideal S1024x1 .f32) : k0_pay1 (F := Ideal) v = v := by
  unfold k0_pay1
  exact shapeCast_self _ _

theorem pay2_eq (v : FVec Ideal S1024x1 .f32) : k0_pay2 (F := Ideal) v = v := by
  unfold k0_pay2
  exact shapeCast_self _ _

theorem pay5_apply (p : Fin 1024) : k0_pay5 (F := Ideal) (ix2 p 0) = ⊥ := by
  unfold k0_pay5
  rw [shapeCast_self]
  exact ofBits_neg_inf_f32

theorem pay6_apply (p : Fin 1024) : k0_pay6 (F := Ideal) (ix2 p 0) = 0 := by
  unfold k0_pay6
  rw [shapeCast_self]
  exact Ideal.ofBits_zero_f32

theorem pay7_apply (p : Fin 1024) : k0_pay7 (F := Ideal) (ix2 p 0) = 0 := by
  unfold k0_pay7
  rw [shapeCast_self]
  exact Ideal.ofBits_zero_f32

end Cert.KernelIdeal.Val

end
-- ==== Proof.LibOnlineSoftmax.lean ====
import Idealize.ShloMosaic.PureOps.Ideal
import Mathlib.Data.EReal.Basic
import Mathlib.Data.EReal.Operations
import Mathlib.Data.Finset.Lattice.Fold
import Mathlib.Algebra.BigOperators.Group.Finset.Basic
import Mathlib.Algebra.BigOperators.Ring.Finset
import Mathlib.Analysis.SpecialFunctions.Exp

noncomputable section

namespace Cert.OnlineSoftmax

open Idealize.ShloMosaic
open scoped BigOperators

variable {ι β κ : Type*}

/-- A finite sum of real numbers is the same taken in the extended reals. -/
theorem coe_finset_sum (T : Finset ι) (f : ι → ℝ) :
    ((∑ i ∈ T, f i : ℝ) : EReal) = ∑ i ∈ T, (f i : EReal) := by
  classical
  induction T using Finset.induction_on with
  | empty => simp
  | insert a s ha ih => rw [Finset.sum_insert ha, Finset.sum_insert ha, EReal.coe_add, ih]

theorem fold_max_bot_eq_sup (T : Finset ι) (f : ι → EReal) : T.fold max ⊥ f = T.sup f := rfl

theorem exp_coe_sub_coe (r m : ℝ) :
    Ideal.exp ((r : EReal) - (m : EReal)) = ((Real.exp (r - m) : ℝ) : EReal) := by
  rw [← EReal.coe_sub, Ideal.exp_coe]

theorem exists_real_fold_max {T : Finset ι} (hT : T.Nonempty) (s : ι → ℝ) :
    ∃ r : ℝ, T.fold max ⊥ (fun i => (s i : EReal)) = (r : EReal) := by
  induction hT using Finset.Nonempty.cons_induction with
  | singleton a => exact ⟨s a, by rw [Finset.fold_singleton, max_bot_right]⟩
  | cons a t ha ht ih =>
    obtain ⟨r, hr⟩ := ih
    exact ⟨max (s a) r, by rw [Finset.fold_cons, hr, EReal.coe_strictMono.monotone.map_max]⟩

/-- Moving the reference point of a sum of exponentials multiplies the sum by the exponential of the shift. -/
theorem rescale_real (T : Finset ι) (s c : ι → ℝ) (m m' : ℝ) :
    Ideal.exp ((m : EReal) - (m' : EReal)) * ∑ i ∈ T, Ideal.exp ((s i : EReal) - (m : EReal)) * (c i : EReal)
      = ∑ i ∈ T, Ideal.exp ((s i : EReal) - (m' : EReal)) * (c i : EReal) := by
  simp only [exp_coe_sub_coe, ← EReal.coe_mul, ← coe_finset_sum]
  congr 1
  rw [Finset.mul_sum]
  refine Finset.sum_congr rfl fun i _ => ?_
  rw [← mul_assoc, ← Real.exp_add]
  congr 2; ring

theorem rescale {T : Finset ι} (s c : ι → ℝ) {m m' : EReal}
    (hm : T.Nonempty → ∃ r : ℝ, m = (r : EReal)) (hm' : T.Nonempty → ∃ r : ℝ, m' = (r : EReal)) :
    Ideal.exp (m - m') * ∑ i ∈ T, Ideal.exp ((s i : EReal) - m) * (c i : EReal)
      = ∑ i ∈ T, Ideal.exp ((s i : EReal) - m') * (c i : EReal) := by
  rcases T.eq_empty_or_nonempty with rfl | hT
  · simp
  · obtain ⟨r, rfl⟩ := hm hT
    obtain ⟨r', rfl⟩ := hm' hT
    exact rescale_real T s c r r'

theorem rescale_one {T : Finset ι} (s : ι → ℝ) {m m' : EReal}
    (hm : T.Nonempty → ∃ r : ℝ, m = (r : EReal)) (hm' : T.Nonempty → ∃ r : ℝ, m' = (r : EReal)) :
    Ideal.exp (m - m') * ∑ i ∈ T, Ideal.exp ((s i : EReal) - m)
      = ∑ i ∈ T, Ideal.exp ((s i : EReal) - m') := by
  simpa using rescale s (fun _ => (1 : ℝ)) hm hm'

/-- The online softmax after the scores indexed by T: m is their maximum, l the sum of their exponentials taken from m, a the numerator weighted the same way. -/
structure FlatInv (S V : ι → EReal) (T : Finset ι) (m l a : EReal) : Prop where
  m_eq : m = T.fold max ⊥ S
  l_eq : l = ∑ i ∈ T, Ideal.exp (S i - m)
  a_eq : a = ∑ i ∈ T, Ideal.exp (S i - m) * V i

theorem FlatInv.init (S V : ι → EReal) : FlatInv S V ∅ ⊥ 0 0 :=
  ⟨by simp, by simp, by simp⟩

theorem FlatInv.step [DecidableEq ι] {S V : ι → EReal} {T U : Finset ι} {m l a m' l' a' : EReal}
    (h : FlatInv S V T m l a) (hTU : Disjoint T U)
    (hS : ∀ i, ∃ r : ℝ, S i = (r : EReal)) (hV : ∀ i, ∃ r : ℝ, V i = (r : EReal))
    (hm' : m' = max m (U.fold max ⊥ S))
    (hl' : l' = Ideal.exp (m - m') * l + ∑ i ∈ U, Ideal.exp (S i - m'))
    (ha' : a' = Ideal.exp (m - m') * a + ∑ i ∈ U, Ideal.exp (S i - m') * V i) :
    FlatInv S V (T ∪ U) m' l' a' := by
  choose s hs using hS
  choose v hv using hV
  obtain rfl : S = fun i => (s i : EReal) := funext hs
  obtain rfl : V = fun i => (v i : EReal) := funext hv
  have hmU : m' = (T ∪ U).fold max ⊥ (fun i => (s i : EReal)) := by
    rw [hm', h.m_eq, fold_max_bot_eq_sup, fold_max_bot_eq_sup, fold_max_bot_eq_sup, Finset.sup_union]
  have hr : T.Nonempty → ∃ r : ℝ, m = (r : EReal) := fun hT => by
    rw [h.m_eq]; exact exists_real_fold_max hT s
  have hr' : T.Nonempty → ∃ r : ℝ, m' = (r : EReal) := fun hT => by
    rw [hmU]; exact exists_real_fold_max (hT.mono Finset.subset_union_left) s
  refine ⟨hmU, ?_, ?_⟩
  · rw [hl', h.l_eq, rescale_one s hr hr', Finset.sum_union hTU]
  · rw [ha', h.a_eq, rescale s v hr hr', Finset.sum_union hTU]

theorem FlatInv.exists_real {S V : ι → EReal} {T : Finset ι} {m l a : EReal} (h : FlatInv S V T m l a)
    (hT : T.Nonempty) (hS : ∀ i, ∃ r : ℝ, S i = (r : EReal)) :
    (∃ r : ℝ, m = (r : EReal)) ∧ ∃ r : ℝ, 0 < r ∧ l = (r : EReal) := by
  choose s hs using hS
  obtain rfl : S = fun i => (s i : EReal) := funext hs
  obtain ⟨r, hr⟩ : ∃ r : ℝ, m = (r : EReal) := by rw [h.m_eq]; exact exists_real_fold_max hT s
  refine ⟨⟨r, hr⟩, ∑ i ∈ T, Real.exp (s i - r), Finset.sum_pos (fun i _ => Real.exp_pos _) hT, ?_⟩
  rw [h.l_eq, hr, coe_finset_sum]
  exact Finset.sum_congr rfl fun i _ => exp_coe_sub_coe _ _

/-- The same invariant with the scores grouped in blocks. -/
structure Inv [Fintype κ] (S V : β → κ → EReal) (B : Finset β) (m l a : EReal) : Prop where
  m_eq : m = B.fold max ⊥ fun j => Finset.univ.fold max ⊥ (S j)
  l_eq : l = ∑ j ∈ B, ∑ k, Ideal.exp (S j k - m)
  a_eq : a = ∑ j ∈ B, ∑ k, Ideal.exp (S j k - m) * V j k

theorem inv_iff_flatInv [Fintype κ] (S V : β → κ → EReal) (B : Finset β) (m l a : EReal) :
    Inv S V B m l a
      ↔ FlatInv (fun x : β × κ => S x.1 x.2) (fun x : β × κ => V x.1 x.2) (B ×ˢ Finset.univ) m l a := by
  have hm : (B ×ˢ (Finset.univ : Finset κ)).fold max ⊥ (fun x : β × κ => S x.1 x.2)
      = B.fold max ⊥ fun j => Finset.univ.fold max ⊥ (S j) := by
    simp only [fold_max_bot_eq_sup]; exact Finset.sup_product_left _ _ _
  have hl : ∑ x ∈ B ×ˢ (Finset.univ : Finset κ), Ideal.exp (S x.1 x.2 - m)
      = ∑ j ∈ B, ∑ k, Ideal.exp (S j k - m) :=
    Finset.sum_product' _ _ (fun j k => Ideal.exp (S j k - m))
  have ha : ∑ x ∈ B ×ˢ (Finset.univ : Finset κ), Ideal.exp (S x.1 x.2 - m) * V x.1 x.2
      = ∑ j ∈ B, ∑ k, Ideal.exp (S j k - m) * V j k :=
    Finset.sum_product' _ _ (fun j k => Ideal.exp (S j k - m) * V j k)
  constructor
  · rintro ⟨h1, h2, h3⟩; exact ⟨h1.trans hm.symm, h2.trans hl.symm, h3.trans ha.symm⟩
  · rintro ⟨h1, h2, h3⟩; exact ⟨h1.trans hm, h2.trans hl, h3.trans ha⟩

theorem Inv.init [Fintype κ] (S V : β → κ → EReal) : Inv S V ∅ ⊥ 0 0 :=
  ⟨by simp, by simp, by simp⟩

theorem Inv.step [DecidableEq β] [Fintype κ] {S V : β → κ → EReal} {B : Finset β} {b : β} {m l a m' l' a' : EReal}
    (h : Inv S V B m l a) (hb : b ∉ B)
    (hS : ∀ j k, ∃ r : ℝ, S j k = (r : EReal)) (hV : ∀ j k, ∃ r : ℝ, V j k = (r : EReal))
    (hm' : m' = max m (Finset.univ.fold max ⊥ (S b)))
    (hl' : l' = Ideal.exp (m - m') * l + ∑ k, Ideal.exp (S b k - m'))
    (ha' : a' = Ideal.exp (m - m') * a + ∑ k, Ideal.exp (S b k - m') * V b k) :
    Inv S V (insert b B) m' l' a' := by
  classical
  rw [inv_iff_flatInv] at h ⊢
  have hU : insert b B ×ˢ (Finset.univ : Finset κ) = B ×ˢ Finset.univ ∪ {b} ×ˢ Finset.univ := by
    rw [Finset.insert_eq, Finset.union_product, Finset.union_comm]
  rw [hU]
  refine h.step ?_ (fun x => hS x.1 x.2) (fun x => hV x.1 x.2) ?_ ?_ ?_
  · exact Finset.disjoint_product.2 (Or.inl (Finset.disjoint_singleton_right.2 hb))
  · rw [hm']; congr 1
    simp only [fold_max_bot_eq_sup]
    rw [Finset.sup_product_left, Finset.sup_singleton]
  · rw [hl', Finset.sum_product' (f := fun j k => Ideal.exp (S j k - m')), Finset.sum_singleton]
  · rw [ha', Finset.sum_product' (f := fun j k => Ideal.exp (S j k - m') * V j k), Finset.sum_singleton]

theorem Inv.exists_real [Fintype κ] [Nonempty κ] {S V : β → κ → EReal} {B : Finset β} {m l a : EReal}
    (h : Inv S V B m l a) (hB : B.Nonempty) (hS : ∀ j k, ∃ r : ℝ, S j k = (r : EReal)) :
    (∃ r : ℝ, m = (r : EReal)) ∧ ∃ r : ℝ, 0 < r ∧ l = (r : EReal) :=
  ((inv_iff_flatInv S V B m l a).1 h).exists_real (hB.product Finset.univ_nonempty) fun x => hS x.1 x.2

end Cert.OnlineSoftmax
-- ==== Proof.Spec.lean ====
import Idealize.ShloMosaic.PureOps
import Idealize.ShloMosaic.PureOps.Ideal
import Idealize.ShloMosaic.Lib.ValueIdx

noncomputable section

namespace Cert.Spec

open Idealize.ShloMosaic Idealize.ShloMosaic.ValueIdx
open scoped BigOperators

abbrev SW : Shape := ⟨2, ![32000, 2048]⟩
abbrev SX : Shape := ⟨3, ![8, 512, 2048]⟩
abbrev ST : Shape := ⟨2, ![8, 512]⟩
abbrev SB : Shape := ⟨1, ![32000]⟩
abbrev S0 : Shape := ⟨0, ![]⟩
abbrev S8 : Shape := ⟨1, ![8]⟩
abbrev S4 : Shape := ⟨1, ![4]⟩
abbrev S4x512 : Shape := ⟨2, ![4, 512]⟩

abbrev ignoreWord : BitVec 32 := 4294967196#32

/-- The score of row (b, t) for vocabulary entry v: the row's activations against that entry's weights, plus its bias. -/
def logit (W : FVec Ideal SW .f32) (X : FVec Ideal SX .f32) (bias : FVec Ideal SB .f32)
    (b : Fin 8) (t : Fin 512) (v : Fin 32000) : EReal :=
  (∑ h : Fin 2048, X (ix3 b t h) * W (ix2 v h)) + bias (ix1 v)

/-- A row's label: its target, or entry 0 where the target is the ignore value. -/
def label (tgt : IVec ST 32) (b : Fin 8) (t : Fin 512) : BitVec 32 :=
  if tgt (ix2 b t) = ignoreWord then 0#32 else tgt (ix2 b t)

def labelIdx (tgt : IVec ST 32) (b : Fin 8) (t : Fin 512) : Fin 32000 :=
  ⟨(label tgt b t).toNat % 32000, Nat.mod_lt _ (by decide)⟩

/-- 1 for a row that counts, 0 for an ignored one. -/
def maskf (tgt : IVec ST 32) (b : Fin 8) (t : Fin 512) : EReal :=
  if tgt (ix2 b t) = ignoreWord then 0 else 1

def rowMax (z : Fin 32000 → EReal) : EReal := Finset.univ.fold max ⊥ z

def rowZ (z : Fin 32000 → EReal) : EReal := ∑ v : Fin 32000, Ideal.exp (z v - rowMax z)

/-- The masked log-softmax of a row at its label: score minus row maximum minus the logarithm of the normaliser, times the mask. -/
def ptlAt (W : FVec Ideal SW .f32) (X : FVec Ideal SX .f32) (tgt : IVec ST 32) (bias : FVec Ideal SB .f32)
    (b : Fin 8) (t : Fin 512) : EReal :=
  ((logit W X bias b t (labelIdx tgt b t) - rowMax (logit W X bias b t)) - Ideal.log (rowZ (logit W X bias b t)))
    * maskf tgt b t

def ptl (W : FVec Ideal SW .f32) (X : FVec Ideal SX .f32) (tgt : IVec ST 32) (bias : FVec Ideal SB .f32) :
    FVec Ideal ST .f32 :=
  fun i => ptlAt W X tgt bias (i 0) (i 1)

def maskBits (tgt : IVec ST 32) : IVec ST 1 :=
  fun i => if tgt i = ignoreWord then 0#1 else 1#1

structure TailFacts : Prop where
  r1 : ST.ReducesTo [1] S8
  hS : 0 < S0.numel
  lt : 1 < 32
  sl0 : S8.Slices ![0] S4
  sl4 : S8.Slices ![4] S4
  sl00 : ST.Slices ![0, 0] S4x512
  r01 : S4x512.ReducesTo [0, 1] S0
  bc4 : S0.BroadcastsInDim S4 (![] : Fin 0 → Fin S4.rank)
  r0 : S4.ReducesTo [0] S0

variable {F : FTy → Type} [FloatOps F]

def softplus4 (tf : TailFacts) (x : FVec F S4 .f32) : FVec F S4 .f32 :=
  let cst : FVec F S0 .f32 := constant S0 .f32 0x00000000#32
  let s0 : FVec F S4 .f32 := broadcastInDim S4 ![] tf.bc4 cst
  let s1 : FVec F S4 .f32 := maximumf x s0
  let s2 : FVec F S4 .f32 := broadcastInDim S4 ![] tf.bc4 cst
  let s3 : FVec F S4 .f32 := subf x s2
  let s4 : IVec S4 1 := cmpf .une s3 s3
  let s5 : FVec F S4 .f32 := broadcastInDim S4 ![] tf.bc4 cst
  let s6 : FVec F S4 .f32 := addf x s5
  let s7 : FVec F S4 .f32 := Host.absf s3
  let s8 : FVec F S4 .f32 := Host.negf s7
  let s9 : FVec F S4 .f32 := Host.exp s8
  let s10 : FVec F S4 .f32 := Host.log1p s9
  let s11 : FVec F S4 .f32 := addf s1 s10
  select s4 s6 s11

def logSigmoid4 (tf : TailFacts) (x : FVec F S4 .f32) : FVec F S4 .f32 :=
  Host.negf (softplus4 tf (Host.negf x))

/-- What both programs do with the per-token values p and the mask k: length-normalised sums per sequence, the first four sequences against the last four through the log-sigmoid, and the first four's mean negative log-likelihood. -/
def tail (tf : TailFacts) (p : FVec F ST .f32) (k : IVec ST 1) : FVec F S0 .f32 :=
  let v15 : IVec ST 32 := extui 32 k tf.lt
  let c_1 : IVec S0 32 := constantI S0 32 0#32
  let v16 : IVec S8 32 := Host.reduce IntOp.addi v15 c_1 tf.r1 tf.hS
  let v17 : FVec F S8 .f32 := sitofp .f32 v16
  let cst : FVec F S0 .f32 := constant S0 .f32 0x00000000#32
  let v18 : FVec F S8 .f32 := Host.reduceAdd p cst tf.r1 tf.hS
  let v19 : FVec F S8 .f32 := Host.divf v18 v17
  let v20 : FVec F S4 .f32 := extractStridedSlice S4 ![0] v19 tf.sl0
  let v21 : FVec F S4 .f32 := extractStridedSlice S4 ![4] v19 tf.sl4
  let v22 : FVec F S4x512 .f32 := extractStridedSlice S4x512 ![0, 0] p tf.sl00
  let v23 : FVec F S0 .f32 := Host.reduceAdd v22 cst tf.r01 tf.hS
  let v24 : FVec F S0 .f32 := Host.negf v23
  let v25 : IVec S4x512 1 := extractStridedSlice S4x512 ![0, 0] k tf.sl00
  let v26 : IVec S4x512 32 := extui 32 v25 tf.lt
  let v27 : IVec S0 32 := Host.reduce IntOp.addi v26 c_1 tf.r01 tf.hS
  let v28 : FVec F S0 .f32 := sitofp .f32 v27
  let v29 : FVec F S0 .f32 := Host.divf v24 v28
  let v30 : FVec F S4 .f32 := subf v20 v21
  let v31 : FVec F S4 .f32 := broadcastInDim S4 ![] tf.bc4 (constant S0 .f32 0x3DCCCCCD#32)
  let v32 : FVec F S4 .f32 := mulf v31 v30
  let v33 : FVec F S4 .f32 := broadcastInDim S4 ![] tf.bc4 (constant S0 .f32 0x3F000000#32)
  let v34 : FVec F S4 .f32 := subf v32 v33
  let v35 : FVec F S4 .f32 := logSigmoid4 tf v34
  let v36 : FVec F S4 .f32 := Host.negf v35
  let v37 : FVec F S4 .f32 := broadcastInDim S4 ![] tf.bc4 (constant S0 .f32 0x3F800000#32)
  let v38 : FVec F S4 .f32 := mulf v36 v37
  let v39 : FVec F S4 .f32 := Host.negf v34
  let v40 : FVec F S4 .f32 := logSigmoid4 tf v39
  let v41 : FVec F S4 .f32 := broadcastInDim S4 ![] tf.bc4 cst
  let v42 : FVec F S4 .f32 := mulf v40 v41
  let v43 : FVec F S4 .f32 := subf v38 v42
  let v44 : FVec F S0 .f32 := Host.reduceAdd v43 cst tf.r0 tf.hS
  let v45 : FVec F S0 .f32 := Host.divf v44 (constant S0 .f32 0x40800000#32)
  let v46 : FVec F S0 .f32 := mulf (constant S0 .f32 0x3F800000#32) v29
  addf v46 v45

/-- The value both programs end with, as a function of the four arguments. -/
def result (tf : TailFacts) (W : FVec Ideal SW .f32) (X : FVec Ideal SX .f32) (tgt : IVec ST 32) (bias : FVec Ideal SB .f32) :
    FVec Ideal S0 .f32 :=
  tail (F := Ideal) tf (ptl W X tgt bias) (maskBits tgt)

end Cert.Spec

end
-- ==== Proof.KIRows.lean ====
import proofs.«419790_j22101901705594_3_alg».proof.Proof.KIPay
import proofs.«419790_j22101901705594_3_alg».proof.Proof.LibOnlineSoftmax
import proofs.«419790_j22101901705594_3_alg».proof.Proof.Spec

noncomputable section

namespace Cert.KernelIdeal.Val

open Cert.KernelIdeal Cert.KernelIdeal.Gen Idealize.ShloMosaic Idealize.ShloMosaic.ValueIdx
open scoped BigOperators

def scrFirst (i : grid0.Coords) (x0 : Vec Ideal S1024x2048 .bf16) (x1 : Vec Ideal S640x2048 .bf16)
    (x2 : Vec Ideal S1x640 .f32) (x3 : Vec Ideal S1024x1 .i32) :
    Vec Ideal S1024x1 .f32 × Vec Ideal S1024x1 .f32 × Vec Ideal S1024x1 .f32 :=
  (k0_pay1 (F := Ideal) (k0_pay9 (F := Ideal) x0 x1 x2 (k0_pay5 (F := Ideal))),
   k0_pay2 (F := Ideal) (k0_pay10 (F := Ideal) x0 x1 x2 (k0_pay5 (F := Ideal)) (k0_pay6 (F := Ideal))),
   k0_pay3 (F := Ideal) (k0_pay11 (F := Ideal) i x0 x1 x2 x3) (k0_pay7 (F := Ideal)))

def scrNext (i : grid0.Coords) (x0 : Vec Ideal S1024x2048 .bf16) (x1 : Vec Ideal S640x2048 .bf16)
    (x2 : Vec Ideal S1x640 .f32) (x3 : Vec Ideal S1024x1 .i32)
    (s : Vec Ideal S1024x1 .f32 × Vec Ideal S1024x1 .f32 × Vec Ideal S1024x1 .f32) :
    Vec Ideal S1024x1 .f32 × Vec Ideal S1024x1 .f32 × Vec Ideal S1024x1 .f32 :=
  (k0_pay1 (F := Ideal) (k0_pay9 (F := Ideal) x0 x1 x2 s.1),
   k0_pay2 (F := Ideal) (k0_pay10 (F := Ideal) x0 x1 x2 s.1 s.2.1),
   k0_pay3 (F := Ideal) (k0_pay11 (F := Ideal) i x0 x1 x2 x3) s.2.2)

/-- The carried rows after position n, restarting at the first chunk of every row block. -/
def scr (I : ℕ → grid0.Coords) (X0 : ℕ → Vec Ideal S1024x2048 .bf16) (X1 : ℕ → Vec Ideal S640x2048 .bf16)
    (X2 : ℕ → Vec Ideal S1x640 .f32) (X3 : ℕ → Vec Ideal S1024x1 .i32) :
    ℕ → Vec Ideal S1024x1 .f32 × Vec Ideal S1024x1 .f32 × Vec Ideal S1024x1 .f32
  | 0 => scrFirst (I 0) (X0 0) (X1 0) (X2 0) (X3 0)
  | n + 1 =>
    if (n + 1) % 50 = 0 then scrFirst (I (n + 1)) (X0 (n + 1)) (X1 (n + 1)) (X2 (n + 1)) (X3 (n + 1))
    else scrNext (I (n + 1)) (X0 (n + 1)) (X1 (n + 1)) (X2 (n + 1)) (X3 (n + 1)) (scr I X0 X1 X2 X3 n)

def outLast (x4 : Vec Ideal S1024x1 .f32)
    (s : Vec Ideal S1024x1 .f32 × Vec Ideal S1024x1 .f32 × Vec Ideal S1024x1 .f32) : Vec Ideal S1024x1 .f32 :=
  k0_pay4 (F := Ideal) s.1 s.2.1 s.2.2 x4

def upto (v : ℕ) : Finset (Fin 50) := Finset.univ.filter fun j => j.val < v

theorem upto_zero : upto 0 = ∅ := by
  ext j; simp [upto]

theorem upto_succ (v : ℕ) (hv : v < 50) : upto (v + 1) = insert ⟨v, hv⟩ (upto v) := by
  ext j; simp [upto, Fin.ext_iff]; omega

theorem not_mem_upto (v : ℕ) (hv : v < 50) : (⟨v, hv⟩ : Fin 50) ∉ upto v := by
  simp [upto]

theorem upto_fifty : upto 50 = Finset.univ := by
  ext j; simp [upto]

def colEquiv : Fin 50 × Fin 640 ≃ Fin 32000 where
  toFun x := ⟨640 * x.1.val + x.2.val, by omega⟩
  invFun c := (⟨c.val / 640, by omega⟩, ⟨c.val % 640, by omega⟩)
  left_inv x := by
    apply Prod.ext
    · apply Fin.ext; show (640 * x.1.val + x.2.val) / 640 = x.1.val; omega
    · apply Fin.ext; show (640 * x.1.val + x.2.val) % 640 = x.2.val; omega
  right_inv c := by
    apply Fin.ext; show 640 * (c.val / 640) + c.val % 640 = c.val; omega

theorem sum_fin32000 (g : Fin 32000 → EReal) :
    (∑ k : Fin 32000, g k) = ∑ j : Fin 50, ∑ kk : Fin 640, g ⟨640 * j.val + kk.val, by omega⟩ := by
  rw [← Fintype.sum_equiv colEquiv (fun x => g (colEquiv x)) g (fun _ => rfl)]
  exact Fintype.sum_prod_type' (fun (j : Fin 50) (kk : Fin 640) => g ⟨640 * j.val + kk.val, by omega⟩)

theorem fold_max_fin32000 (g : Fin 32000 → EReal) :
    (Finset.univ : Finset (Fin 32000)).fold max ⊥ g
      = (Finset.univ : Finset (Fin 50)).fold max ⊥ fun j =>
          (Finset.univ : Finset (Fin 640)).fold max ⊥ fun kk => g ⟨640 * j.val + kk.val, by omega⟩ := by
  simp only [Cert.OnlineSoftmax.fold_max_bot_eq_sup]
  rw [← Finset.map_univ_equiv colEquiv, Finset.sup_map, ← Finset.univ_product_univ, Finset.sup_product_left]
  rfl

def rowS (zr : Fin 4096 → Fin 32000 → ℝ) (R : Fin 4096) (j : Fin 50) (k : Fin 640) : EReal :=
  ((zr R ⟨640 * j.val + k.val, by omega⟩ : ℝ) : EReal)

theorem scr_of_mod_eq_zero (I : ℕ → grid0.Coords) (X0 : ℕ → Vec Ideal S1024x2048 .bf16)
    (X1 : ℕ → Vec Ideal S640x2048 .bf16) (X2 : ℕ → Vec Ideal S1x640 .f32) (X3 : ℕ → Vec Ideal S1024x1 .i32)
    (n : ℕ) (h : n % 50 = 0) :
    scr I X0 X1 X2 X3 n
      = scrNext (I n) (X0 n) (X1 n) (X2 n) (X3 n) (k0_pay5 (F := Ideal), k0_pay6 (F := Ideal), k0_pay7 (F := Ideal)) := by
  cases n with
  | zero => rfl
  | succ n => rw [scr, if_pos h]; rfl

theorem scr_succ_of_mod_ne_zero (I : ℕ → grid0.Coords) (X0 : ℕ → Vec Ideal S1024x2048 .bf16)
    (X1 : ℕ → Vec Ideal S640x2048 .bf16) (X2 : ℕ → Vec Ideal S1x640 .f32) (X3 : ℕ → Vec Ideal S1024x1 .i32)
    (n : ℕ) (h : (n + 1) % 50 ≠ 0) :
    scr I X0 X1 X2 X3 (n + 1)
      = scrNext (I (n + 1)) (X0 (n + 1)) (X1 (n + 1)) (X2 (n + 1)) (X3 (n + 1)) (scr I X0 X1 X2 X3 n) := by
  rw [scr, if_neg h]

section point

variable (i : grid0.Coords) (x0 : Vec Ideal S1024x2048 .bf16) (x1 : Vec Ideal S640x2048 .bf16)
  (x2 : Vec Ideal S1x640 .f32) (x3 : Vec Ideal S1024x1 .i32)
  (s : Vec Ideal S1024x1 .f32 × Vec Ideal S1024x1 .f32 × Vec Ideal S1024x1 .f32) (p : Fin 1024)

theorem scrNext_fst :
    (scrNext i x0 x1 x2 x3 s).1 (ix2 p 0)
      = max (s.1 (ix2 p 0)) (Finset.univ.fold max ⊥ fun q : Fin 640 => k0_pay8 (F := Ideal) x0 x1 x2 (ix2 p q)) := by
  show k0_pay1 (F := Ideal) (k0_pay9 (F := Ideal) x0 x1 x2 s.1) (ix2 p 0) = _
  rw [pay1_eq, pay9_apply]

theorem scrNext_snd :
    (scrNext i x0 x1 x2 x3 s).2.1 (ix2 p 0)
      = Ideal.exp (s.1 (ix2 p 0) - (scrNext i x0 x1 x2 x3 s).1 (ix2 p 0)) * s.2.1 (ix2 p 0)
        + ∑ q : Fin 640, Ideal.exp (k0_pay8 (F := Ideal) x0 x1 x2 (ix2 p q) - (scrNext i x0 x1 x2 x3 s).1 (ix2 p 0)) := by
  show k0_pay2 (F := Ideal) (k0_pay10 (F := Ideal) x0 x1 x2 s.1 s.2.1) (ix2 p 0)
    = Ideal.exp (s.1 (ix2 p 0) - k0_pay1 (F := Ideal) (k0_pay9 (F := Ideal) x0 x1 x2 s.1) (ix2 p 0)) * s.2.1 (ix2 p 0)
      + ∑ q : Fin 640, Ideal.exp (k0_pay8 (F := Ideal) x0 x1 x2 (ix2 p q)
          - k0_pay1 (F := Ideal) (k0_pay9 (F := Ideal) x0 x1 x2 s.1) (ix2 p 0))
  rw [pay1_eq, pay2_eq, pay10_apply, mul_comm]

theorem scrNext_trd :
    (scrNext i x0 x1 x2 x3 s).2.2 (ix2 p 0) = s.2.2 (ix2 p 0) + k0_pay11 (F := Ideal) i x0 x1 x2 x3 (ix1 p) :=
  pay3_apply _ _ p

/-- One chunk keeps the online-softmax invariant at each row and adds the label's score exactly in the label's chunk. -/
theorem step_row (zr : Fin 4096 → Fin 32000 → ℝ) (R : Fin 4096) (w : BitVec 32) (hw : w.toNat < 32000)
    (v : ℕ) (hv : v < 50) (hi : (i 1).val = v)
    (hz : ∀ q : Fin 640, k0_pay8 (F := Ideal) x0 x1 x2 (ix2 p q) = rowS zr R ⟨v, hv⟩ q)
    (hlab : x3 (ix2 p 0) = w)
    (hinv : Cert.OnlineSoftmax.Inv (rowS zr R) (fun _ _ => 0) (upto v) (s.1 (ix2 p 0)) (s.2.1 (ix2 p 0)) 0)
    (hacc : s.2.2 (ix2 p 0) = if w.toNat / 640 < v then ((zr R ⟨w.toNat, hw⟩ : ℝ) : EReal) else 0) :
    Cert.OnlineSoftmax.Inv (rowS zr R) (fun _ _ => 0) (upto (v + 1))
        ((scrNext i x0 x1 x2 x3 s).1 (ix2 p 0)) ((scrNext i x0 x1 x2 x3 s).2.1 (ix2 p 0)) 0
      ∧ (scrNext i x0 x1 x2 x3 s).2.2 (ix2 p 0)
          = if w.toNat / 640 < v + 1 then ((zr R ⟨w.toNat, hw⟩ : ℝ) : EReal) else 0 := by
  have e : (fun q : Fin 640 => k0_pay8 (F := Ideal) x0 x1 x2 (ix2 p q)) = rowS zr R ⟨v, hv⟩ := funext hz
  constructor
  · rw [upto_succ v hv]
    refine hinv.step (not_mem_upto v hv) (fun j k => ⟨_, rfl⟩) (fun _ _ => ⟨0, EReal.coe_zero.symm⟩) ?_ ?_ ?_
    · rw [scrNext_fst, e]
    · rw [scrNext_snd]; simp only [hz]
    · simp
  · rw [scrNext_trd, hacc]
    have hL : (x3 (ix2 p 0)).toNat < 32000 := by rw [hlab]; exact hw
    by_cases h : w.toNat / 640 = v
    · have hq : x3 (ix2 p 0)
          = BitVec.ofNat 32 (640 * (i 1).val + (⟨w.toNat % 640, Nat.mod_lt _ (by decide)⟩ : Fin 640).val) := by
        rw [hlab, hi]
        apply BitVec.eq_of_toNat_eq
        rw [BitVec.toNat_ofNat]
        show w.toNat = (640 * v + w.toNat % 640) % 2 ^ 32
        omega
      rw [pay11_hit i x0 x1 x2 x3 p _ hq, hz, if_neg (by omega), if_pos (by omega), zero_add]
      unfold rowS
      congr 2
      apply Fin.ext
      show 640 * v + w.toNat % 640 = w.toNat
      omega
    · rw [pay11_miss i x0 x1 x2 x3 p hL (by rw [hlab, hi]; exact h), add_zero]
      by_cases h2 : w.toNat / 640 < v
      · rw [if_pos h2, if_pos (by omega)]
      · rw [if_neg h2, if_neg (by omega)]

end point

section rows

variable (I : ℕ → grid0.Coords) (X0 : ℕ → Vec Ideal S1024x2048 .bf16)
  (X1 : ℕ → Vec Ideal S640x2048 .bf16) (X2 : ℕ → Vec Ideal S1x640 .f32) (X3 : ℕ → Vec Ideal S1024x1 .i32)
  (zr : Fin 4096 → Fin 32000 → ℝ) (labw : Fin 4096 → BitVec 32)

theorem rows_inv
    (hI : ∀ n, n < 200 → ((I n) 1).val = n % 50)
    (hz : ∀ n (hn : n < 200) (p : Fin 1024) (q : Fin 640),
      k0_pay8 (F := Ideal) (X0 n) (X1 n) (X2 n) (ix2 p q)
        = ((zr ⟨1024 * (n / 50) + p.val, by omega⟩ ⟨640 * (n % 50) + q.val, by omega⟩ : ℝ) : EReal))
    (hlab : ∀ n (hn : n < 200) (p : Fin 1024), X3 n (ix2 p 0) = labw ⟨1024 * (n / 50) + p.val, by omega⟩)
    (hlt : ∀ R, (labw R).toNat < 32000)
    (r : ℕ) (hr : r < 4) (p : Fin 1024) :
    ∀ (v : ℕ) (hv : v < 50),
      Cert.OnlineSoftmax.Inv (rowS zr ⟨1024 * r + p.val, by omega⟩) (fun _ _ => 0) (upto (v + 1))
          ((scr I X0 X1 X2 X3 (50 * r + v)).1 (ix2 p 0)) ((scr I X0 X1 X2 X3 (50 * r + v)).2.1 (ix2 p 0)) 0
        ∧ (scr I X0 X1 X2 X3 (50 * r + v)).2.2 (ix2 p 0)
            = if (labw ⟨1024 * r + p.val, by omega⟩).toNat / 640 < v + 1
              then ((zr ⟨1024 * r + p.val, by omega⟩ ⟨(labw ⟨1024 * r + p.val, by omega⟩).toNat, hlt _⟩ : ℝ) : EReal)
              else 0 := by
  have hz' : ∀ (v : ℕ) (hv : v < 50) (q : Fin 640),
      k0_pay8 (F := Ideal) (X0 (50 * r + v)) (X1 (50 * r + v)) (X2 (50 * r + v)) (ix2 p q)
        = rowS zr ⟨1024 * r + p.val, by omega⟩ ⟨v, hv⟩ q := by
    intro v hv q
    rw [hz (50 * r + v) (by omega) p q]
    unfold rowS
    congr 2 <;> (apply Fin.ext; simp only []; omega)
  have hlab' : ∀ (v : ℕ) (hv : v < 50),
      X3 (50 * r + v) (ix2 p 0) = labw ⟨1024 * r + p.val, by omega⟩ := by
    intro v hv
    rw [hlab (50 * r + v) (by omega) p]
    congr 1
    apply Fin.ext; simp only []; omega
  have hI' : ∀ (v : ℕ) (hv : v < 50), ((I (50 * r + v)) 1).val = v := by
    intro v hv
    rw [hI (50 * r + v) (by omega)]; omega
  intro v
  induction v with
  | zero =>
    intro hv
    rw [scr_of_mod_eq_zero I X0 X1 X2 X3 (50 * r + 0) (by omega)]
    refine step_row _ _ _ _ _ _ p zr _ _ (hlt _) 0 hv (hI' 0 hv) (hz' 0 hv) (hlab' 0 hv) ?_ ?_
    · rw [upto_zero]
      show Cert.OnlineSoftmax.Inv _ _ ∅ (k0_pay5 (F := Ideal) (ix2 p 0)) (k0_pay6 (F := Ideal) (ix2 p 0)) 0
      rw [pay5_apply, pay6_apply]
      exact Cert.OnlineSoftmax.Inv.init _ _
    · show k0_pay7 (F := Ideal) (ix2 p 0) = _
      rw [pay7_apply, if_neg (by omega)]
  | succ v ih =>
    intro hv
    obtain ⟨h1, h2⟩ := ih (by omega)
    rw [show 50 * r + (v + 1) = (50 * r + v) + 1 from rfl,
      scr_succ_of_mod_ne_zero I X0 X1 X2 X3 (50 * r + v) (by omega)]
    exact step_row _ _ _ _ _ _ p zr _ _ (hlt _) (v + 1) hv (hI' (v + 1) hv) (hz' (v + 1) hv) (hlab' (v + 1) hv)
      h1 h2

end rows

/-- After the fifty chunks of a row block the closing formula is the masked log-softmax of the row at its label. -/
theorem rows_final (I : ℕ → grid0.Coords) (X0 : ℕ → Vec Ideal S1024x2048 .bf16)
    (X1 : ℕ → Vec Ideal S640x2048 .bf16) (X2 : ℕ → Vec Ideal S1x640 .f32) (X3 : ℕ → Vec Ideal S1024x1 .i32)
    (zr : Fin 4096 → Fin 32000 → ℝ) (labw : Fin 4096 → BitVec 32)
    (hI : ∀ n, n < 200 → ((I n) 1).val = n % 50)
    (hz : ∀ n (hn : n < 200) (p : Fin 1024) (q : Fin 640),
      k0_pay8 (F := Ideal) (X0 n) (X1 n) (X2 n) (ix2 p q)
        = ((zr ⟨1024 * (n / 50) + p.val, by omega⟩ ⟨640 * (n % 50) + q.val, by omega⟩ : ℝ) : EReal))
    (hlab : ∀ n (hn : n < 200) (p : Fin 1024), X3 n (ix2 p 0) = labw ⟨1024 * (n / 50) + p.val, by omega⟩)
    (hlt : ∀ R, (labw R).toNat < 32000)
    (n : ℕ) (hn : n < 200) (hlast : n % 50 = 49) (x4 : Vec Ideal S1024x1 .f32) (p : Fin 1024) :
    outLast x4 (scr I X0 X1 X2 X3 n) (ix2 p 0)
      = (((zr ⟨1024 * (n / 50) + p.val, by omega⟩
              ⟨(labw ⟨1024 * (n / 50) + p.val, by omega⟩).toNat, hlt _⟩ : ℝ) : EReal)
          - Cert.Spec.rowMax (fun v => ((zr ⟨1024 * (n / 50) + p.val, by omega⟩ v : ℝ) : EReal))
          - Ideal.log (Cert.Spec.rowZ (fun v => ((zr ⟨1024 * (n / 50) + p.val, by omega⟩ v : ℝ) : EReal))))
        * x4 (ix2 p 0) := by
  obtain ⟨r, hr, rfl⟩ : ∃ r, r < 4 ∧ n = 50 * r + 49 := ⟨n / 50, by omega, by omega⟩
  have e1 : (50 * r + 49) / 50 = r := by omega
  simp only [e1]
  obtain ⟨hinv, hacc⟩ := rows_inv I X0 X1 X2 X3 zr labw hI hz hlab hlt r hr p 49 (by omega)
  have hu : upto (49 + 1) = Finset.univ := upto_fifty
  rw [hu] at hinv
  obtain ⟨⟨M, hM⟩, Z, hZpos, hZ⟩ := hinv.exists_real Finset.univ_nonempty (fun j k => ⟨_, rfl⟩)
  have hmax : Cert.Spec.rowMax (fun v => ((zr ⟨1024 * r + p.val, by omega⟩ v : ℝ) : EReal))
      = (scr I X0 X1 X2 X3 (50 * r + 49)).1 (ix2 p 0) := by
    rw [hinv.m_eq]
    exact fold_max_fin32000 _
  have hsum : Cert.Spec.rowZ (fun v => ((zr ⟨1024 * r + p.val, by omega⟩ v : ℝ) : EReal))
      = (scr I X0 X1 X2 X3 (50 * r + 49)).2.1 (ix2 p 0) := by
    unfold Cert.Spec.rowZ
    rw [hmax, hinv.l_eq]
    exact sum_fin32000 _
  rw [hmax, hsum]
  show k0_pay4 (F := Ideal) _ _ _ x4 (ix2 p 0) = _
  rw [pay4_apply, hacc, if_pos (by have := hlt ⟨1024 * r + p.val, by omega⟩; omega), hM, hZ, Ideal.log_coe,
    if_neg (not_le.2 hZpos)]
  rw [← EReal.coe_add, ← EReal.coe_sub, ← EReal.coe_sub, ← EReal.coe_sub, sub_sub]

end Cert.KernelIdeal.Val

end
-- ==== Proof.KILink.lean ====
import proofs.«419790_j22101901705594_3_alg».proof.Proof.KIData
import proofs.«419790_j22101901705594_3_alg».proof.Proof.KIRows

set_option maxRecDepth 16384

noncomputable section

namespace Cert.KernelIdeal.Val

open Cert.KernelIdeal Cert.KernelIdeal.Gen Cert.KernelIdeal.Fr
open Idealize.ShloMosaic Idealize.ShloMosaic.ValueIdx
open Idealize.ShloMosaic.Tactic

section Pieces

variable {F : FTy → Type} [FloatOps F] (c : Dev nD) (i : grid0.Coords) (a : Args) (x : Ins F) (xs : Col F × Col F × Col F)

theorem hz2 : (![0, 0] : Fin 2 → Nat) = fun _ => 0 := funext fun a => by fin_cases a <;> rfl

/-- A first chunk leaves in the carried rows the reset values ⊥, 0, 0 pushed through the chunk. -/
theorem pieceA (hc0 : cond0_0 i) (hc1 : ¬cond0_1 i) :
    (canons (kernelRun0_A c i a hc0 hc1 x)).2
      = (k0_pay1 (k0_pay9 x.x0 x.x1 x.x2 k0_pay5), k0_pay2 (k0_pay10 x.x0 x.x1 x.x2 k0_pay5 k0_pay6), k0_pay3 (k0_pay11 i x.x0 x.x1 x.x2 x.x3) k0_pay7) := by
  unfold canons kernelRun0_A
  dsimp only
  sl_unfold_words
  simp only [View.canon_cons_unit_zero (S := S1024x1) hz2, View.readAt_eq_ld, a.h2.read_unread, a.h3.read_unread, a.h4.read_unread, a.h5.read_unread, a.h6.read_unread, a.h7.read_unread, a.h8.read_unread, a.h9.read_unread, a.h10.read_unread, View.ld_unit_zero (S := S1024x2048) hz2, View.ld_unit_zero (S := S640x2048) hz2, View.ld_unit_zero (S := S1x640) hz2, View.ld_unit_zero (S := S1024x1) hz2, View.readCov_unit_zero (S := S1024x1) _ hz2]

/-- A middle chunk leaves what the chunk before left pushed through the chunk. -/
theorem pieceB (hc0 : ¬cond0_0 i) (hc1 : ¬cond0_1 i) :
    (canons (kernelRun0_B c i a hc0 hc1 x xs)).2
      = (k0_pay1 (k0_pay9 x.x0 x.x1 x.x2 xs.1), k0_pay2 (k0_pay10 x.x0 x.x1 x.x2 xs.1 xs.2.1), k0_pay3 (k0_pay11 i x.x0 x.x1 x.x2 x.x3) xs.2.2) := by
  unfold canons kernelRun0_B
  dsimp only
  sl_unfold_words
  simp only [View.canon_cons_unit_zero (S := S1024x1) hz2, View.readAt_eq_ld, a.h2.read_unread, a.h3.read_unread, a.h4.read_unread, a.h5.read_unread, a.h6.read_unread, a.h7.read_unread, a.h8.read_unread, a.h9.read_unread, a.h10.read_unread, View.ld_unit_zero (S := S1024x2048) hz2, View.ld_unit_zero (S := S640x2048) hz2, View.ld_unit_zero (S := S1x640) hz2, View.ld_unit_zero (S := S1024x1) hz2, View.readCov_unit_zero (S := S1024x1) _ hz2]

/-- A last chunk likewise, and its output column is the closing formula over the rows it has just stored, times the mask column. -/
theorem pieceC (hc0 : ¬cond0_0 i) (hc1 : cond0_1 i) :
    canons (kernelRun0_C c i a hc0 hc1 x xs)
      = (k0_pay4 (k0_pay1 (k0_pay9 x.x0 x.x1 x.x2 xs.1)) (k0_pay2 (k0_pay10 x.x0 x.x1 x.x2 xs.1 xs.2.1)) (k0_pay3 (k0_pay11 i x.x0 x.x1 x.x2 x.x3) xs.2.2) x.x4,
         k0_pay1 (k0_pay9 x.x0 x.x1 x.x2 xs.1), k0_pay2 (k0_pay10 x.x0 x.x1 x.x2 xs.1 xs.2.1), k0_pay3 (k0_pay11 i x.x0 x.x1 x.x2 x.x3) xs.2.2) := by
  unfold canons kernelRun0_C
  dsimp only
  sl_unfold_words
  simp only [View.canon_cons_unit_zero (S := S1024x1) hz2, View.readAt_eq_ld, a.h2.read_unread, a.h3.read_unread, a.h4.read_unread, a.h5.read_unread, a.h6.read_unread, a.h7.read_unread, a.h8.read_unread, a.h9.read_unread, a.h10.read_unread, View.ld_unit_zero (S := S1024x2048) hz2, View.ld_unit_zero (S := S640x2048) hz2, View.ld_unit_zero (S := S1x640) hz2, View.ld_unit_zero (S := S1024x1) hz2, View.readCov_unit_zero (S := S1024x1) _ hz2]

end Pieces

variable (m : (ℓ : Loc nD τ sig) → Buf (Elt Ideal) ℓ)

abbrev xb0 (c : Dev nD) (t : Fin cfg0.N) : Vec Ideal S1024x2048 .bf16 := iblk m c 0 t
abbrev xb1 (c : Dev nD) (t : Fin cfg0.N) : Vec Ideal S640x2048 .bf16 := iblk m c 1 t
abbrev xb2 (c : Dev nD) (t : Fin cfg0.N) : Vec Ideal S1x640 .f32 := iblk m c 2 t
abbrev xb3 (c : Dev nD) (t : Fin cfg0.N) : Vec Ideal S1024x1 .i32 := iblk m c 3 t
abbrev xb4 (c : Dev nD) (t : Fin cfg0.N) : Vec Ideal S1024x1 .f32 := iblk m c 4 t

/-- The input blocks and the grid coordinates as families over all positions (a fixed value past the grid). -/
def X0 (c : Dev nD) : ℕ → Vec Ideal S1024x2048 .bf16 :=
  fun n => if h : n < cfg0.N then xb0 m c ⟨n, h⟩ else fun _ => (0 : EReal)
def X1 (c : Dev nD) : ℕ → Vec Ideal S640x2048 .bf16 :=
  fun n => if h : n < cfg0.N then xb1 m c ⟨n, h⟩ else fun _ => (0 : EReal)
def X2 (c : Dev nD) : ℕ → Vec Ideal S1x640 .f32 :=
  fun n => if h : n < cfg0.N then xb2 m c ⟨n, h⟩ else fun _ => (0 : EReal)
def X3 (c : Dev nD) : ℕ → Vec Ideal S1024x1 .i32 :=
  fun n => if h : n < cfg0.N then xb3 m c ⟨n, h⟩ else fun _ => 0#32
def X4 (c : Dev nD) : ℕ → Vec Ideal S1024x1 .f32 :=
  fun n => if h : n < cfg0.N then xb4 m c ⟨n, h⟩ else fun _ => (0 : EReal)
def I0 : ℕ → grid0.Coords :=
  fun n => if h : n < cfg0.N then grid0.coords ⟨n, h⟩ else grid0.coords ⟨0, by decide⟩

theorem X0_eq (c : Dev nD) (n : ℕ) (hn : n < cfg0.N) : X0 m c n = xb0 m c ⟨n, hn⟩ := dif_pos hn
theorem X1_eq (c : Dev nD) (n : ℕ) (hn : n < cfg0.N) : X1 m c n = xb1 m c ⟨n, hn⟩ := dif_pos hn
theorem X2_eq (c : Dev nD) (n : ℕ) (hn : n < cfg0.N) : X2 m c n = xb2 m c ⟨n, hn⟩ := dif_pos hn
theorem X3_eq (c : Dev nD) (n : ℕ) (hn : n < cfg0.N) : X3 m c n = xb3 m c ⟨n, hn⟩ := dif_pos hn
theorem X4_eq (c : Dev nD) (n : ℕ) (hn : n < cfg0.N) : X4 m c n = xb4 m c ⟨n, hn⟩ := dif_pos hn
theorem I0_eq (n : ℕ) (hn : n < cfg0.N) : I0 n = grid0.coords ⟨n, hn⟩ := dif_pos hn

/-- One chunk applied to the rows the position before left. -/
abbrev nxt (c : Dev nD) (t : Fin cfg0.N) : Col Ideal × Col Ideal × Col Ideal :=
  scrNext (grid0.coords t) (xb0 m c t) (xb1 m c t) (xb2 m c t) (xb3 m c t) (outsAt0 m c (t.val - 1) (Nat.lt_of_le_of_lt (Nat.sub_le _ _) t.isLt)).2

theorem trip_A (c : Dev nD) (t : Fin cfg0.N) (h0 : t.val % 50 = 0) (h1 : ¬t.val % 50 = 49) :
    (outsAt0 m c t.val t.isLt).2 = scrFirst (grid0.coords t) (xb0 m c t) (xb1 m c t) (xb2 m c t) (xb3 m c t) := by
  unfold scrFirst
  rw [outsAt0_A m c t h0 h1, pieceA (F := Ideal) c (grid0.coords t) (argsAt t) (blks m c t) ((hcond0_0 t).mpr h0) ((hcond0_1 t).not.mpr h1)]

theorem trip_B (c : Dev nD) (t : Fin cfg0.N) (h0 : ¬t.val % 50 = 0) (h1 : ¬t.val % 50 = 49) :
    (outsAt0 m c t.val t.isLt).2 = nxt m c t := by
  unfold nxt scrNext
  rw [outsAt0_B m c t h0 h1, pieceB (F := Ideal) c (grid0.coords t) (argsAt t) (blks m c t) (outsAt0 m c (t.val - 1) (Nat.lt_of_le_of_lt (Nat.sub_le _ _) t.isLt)).2 ((hcond0_0 t).not.mpr h0) ((hcond0_1 t).not.mpr h1)]

theorem trip_C (c : Dev nD) (t : Fin cfg0.N) (h0 : ¬t.val % 50 = 0) (h1 : t.val % 50 = 49) :
    outsAt0 m c t.val t.isLt = (outLast (xb4 m c t) (nxt m c t), nxt m c t) := by
  unfold nxt outLast scrNext
  rw [outsAt0_C m c t h0 h1, pieceC (F := Ideal) c (grid0.coords t) (argsAt t) (blks m c t) (outsAt0 m c (t.val - 1) (Nat.lt_of_le_of_lt (Nat.sub_le _ _) t.isLt)).2 ((hcond0_0 t).not.mpr h0) ((hcond0_1 t).mpr h1)]

/-- The carried rows after position n are the recursion over the chunks. -/
theorem outs_scr (c : Dev nD) (n : ℕ) (hn : n < cfg0.N) :
    (outsAt0 m c n hn).2 = scr I0 (X0 m c) (X1 m c) (X2 m c) (X3 m c) n := by
  induction n with
  | zero =>
    unfold scr
    rw [I0_eq 0 hn, X0_eq m c 0 hn, X1_eq m c 0 hn, X2_eq m c 0 hn, X3_eq m c 0 hn]
    exact trip_A m c ⟨0, hn⟩ (Nat.zero_mod _) (show ¬(0 : ℕ) % 50 = 49 by decide)
  | succ n ih =>
    unfold scr
    rw [I0_eq (n + 1) hn, X0_eq m c (n + 1) hn, X1_eq m c (n + 1) hn, X2_eq m c (n + 1) hn, X3_eq m c (n + 1) hn]
    by_cases h0 : (n + 1) % 50 = 0
    · rw [if_pos h0]
      exact trip_A m c ⟨n + 1, hn⟩ h0 (show ¬(n + 1) % 50 = 49 by omega)
    · rw [if_neg h0, ← ih (Nat.lt_of_succ_lt hn)]
      by_cases h1 : (n + 1) % 50 = 49
      · exact congrArg Prod.snd (trip_C m c ⟨n + 1, hn⟩ h0 h1)
      · exact trip_B m c ⟨n + 1, hn⟩ h0 h1

/-- At the last chunk of a row block the output column is the closing formula over the recursion's rows. -/
theorem out_last (c : Dev nD) (n : ℕ) (hn : n < cfg0.N) (h49 : n % 50 = 49) :
    (outsAt0 m c n hn).1 = outLast (X4 m c n) (scr I0 (X0 m c) (X1 m c) (X2 m c) (X3 m c) n) := by
  rw [← outs_scr m c n hn, X4_eq m c n hn, trip_C m c ⟨n, hn⟩ (show ¬n % 50 = 0 by omega) h49]

end Cert.KernelIdeal.Val

end
-- ==== Proof.KIBlocks.lean ====
import proofs.«419790_j22101901705594_3_alg».proof.Proof.KIKit
import proofs.«419790_j22101901705594_3_alg».proof.Proof.Spec
import proofs.«419790_j22101901705594_3_alg».proof.Proof.KIPay
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open scoped BigOperators

variable (m : (ℓ : Loc nD τ sig) → Buf (Elt Ideal) ℓ)

abbrev Wa (c : Dev nD) : FVec Ideal Cert.Spec.SW .f32 := m ((c : Thread nD τ).loc main_arg0)

abbrev Xa (c : Dev nD) : FVec Ideal Cert.Spec.SX .f32 := m ((c : Thread nD τ).loc main_arg1)

abbrev Ta (c : Dev nD) : IVec Cert.Spec.ST 32 := m ((c : Thread nD τ).loc main_arg2)

abbrev Ba (c : Dev nD) : FVec Ideal Cert.Spec.SB .f32 := m ((c : Thread nD τ).loc main_arg3)

abbrev seqOf (R : Fin 4096) : Fin 8 := ⟨R.val / 512, by have := R.isLt; omega⟩
abbrev posOf (R : Fin 4096) : Fin 512 := ⟨R.val % 512, Nat.mod_lt _ (by decide)⟩

set_option maxHeartbeats 1000000 in
theorem arr10_apply (c : Dev nD) (v : Fin 32000) (h : Fin 2048) :
    (V m c main_v10 : S32000x2048.Idx → EReal) (ix2 v h) = Wa m c (ix2 v h) := by
  have e : (V m c main_v10 : S32000x2048.Idx → EReal)
      = (truncf .bf16 (Wa m c) bitsLt_bf16_f32 : FVec Ideal S32000x2048 .bf16) := by
    dsimp only [V, V0, headOps]
    simp only [hostOps0, hostOps0_1, hostOps0_2, List.flatten_cons, List.flatten_nil, List.append_nil, List.cons_append, List.nil_append]
    after_results <;> rfl
  rw [e]; rfl

set_option maxHeartbeats 1000000 in
theorem arr11_apply (c : Dev nD) (v : Fin 32000) :
    (V m c main_v11 : S1x32000.Idx → EReal) (ix2 0 v) = Ba m c (ix1 v) := by
  have e : (V m c main_v11 : S1x32000.Idx → EReal)
      = shapeCast S1x32000 (Ba m c) shapeCasts_S32000_S1x32000 := by
    dsimp only [V, V0, headOps]
    simp only [hostOps0, hostOps0_1, hostOps0_2, List.flatten_cons, List.flatten_nil, List.append_nil, List.cons_append, List.nil_append]
    after_results <;> rfl
  rw [e]
  exact shapeCast_a_1a_apply _ _ 0 v

set_option maxHeartbeats 1000000 in
/-- The region's activation array at merged row R is the argument at sequence R / 512, position R % 512. -/
theorem arr9_apply (c : Dev nD) (R : Fin 4096) (h : Fin 2048) :
    (V m c main_v9 : S4096x2048.Idx → EReal) (ix2 R h) = Xa m c (ix3 (seqOf R) (posOf R) h) := by
  have e : (V m c main_v9 : S4096x2048.Idx → EReal)
      = (truncf .bf16 (shapeCast S4096x2048 (Xa m c) shapeCasts_S8x512x2048_S4096x2048 : FVec Ideal S4096x2048 .f32) bitsLt_bf16_f32 : FVec Ideal S4096x2048 .bf16) := by
    dsimp only [V, V0, headOps]
    simp only [hostOps0, hostOps0_1, hostOps0_2, List.flatten_cons, List.flatten_nil, List.append_nil, List.cons_append, List.nil_append]
    after_results <;> rfl
  rw [e]
  show shapeCast S4096x2048 (Xa m c) shapeCasts_S8x512x2048_S4096x2048 (ix2 R h) = _
  refine shapeCast_apply _ _ _ _ ?_
  rw [Shape.rowMajor_val_three, Shape.rowMajor_val_two]
  show (R.val / 512 * 512 + R.val % 512) * 2048 + h.val = R.val * 2048 + h.val
  omega

def maskRow (T : IVec Cert.Spec.ST 32) : IVec S4096 1 :=
  shapeCast S4096 (cmpi .ne T (broadcastInDim S8x512 ![] bcast_S_S8x512 (constantI S_ 32 4294967196#32))) shapeCasts_S8x512_S4096

theorem rowPos (R : Fin 4096) :
    (S8x512.rowMajor (ix2 (seqOf R) (posOf R))).val = (S4096.rowMajor (ix1 R)).val := by
  rw [Shape.rowMajor_val_two, Shape.rowMajor_val_one]
  show R.val / 512 * 512 + R.val % 512 = R.val
  omega

theorem colPos (R : Fin 4096) : (S4096.rowMajor (ix1 R)).val = (S4096x1.rowMajor (ix2 R 0)).val := by
  rw [Shape.rowMajor_val_two, Shape.rowMajor_val_one]
  show R.val = R.val * 1 + 0
  omega

theorem maskRow_apply (T : IVec Cert.Spec.ST 32) (R : Fin 4096) :
    maskRow T (ix1 R) = if T (ix2 (seqOf R) (posOf R)) = Cert.Spec.ignoreWord then 0#1 else 1#1 := by
  unfold maskRow
  rw [shapeCast_apply _ _ (ix1 R) (ix2 (seqOf R) (posOf R)) (rowPos R)]
  show IntOp.cmpi .ne (T (ix2 (seqOf R) (posOf R))) 4294967196#32 = _
  by_cases hx : T (ix2 (seqOf R) (posOf R)) = Cert.Spec.ignoreWord
  · rw [if_pos hx, hx]; rfl
  · rw [if_neg hx]
    exact IntOp.cmpi_ne.mpr hx

set_option maxHeartbeats 1000000 in
theorem arr3_term (c : Dev nD) : (V m c main_v3 : S4096.Idx → BitVec 1) = maskRow (Ta m c) := by
  dsimp only [V, V0, headOps]
  simp only [hostOps0, hostOps0_1, hostOps0_2, List.flatten_cons, List.flatten_nil, List.append_nil, List.cons_append, List.nil_append]
  after_results <;> rfl

theorem arr3_eq (c : Dev nD) (R : Fin 4096) :
    (V m c main_v3 : S4096.Idx → BitVec 1) (ix1 R)
      = if Ta m c (ix2 (seqOf R) (posOf R)) = Cert.Spec.ignoreWord then 0#1 else 1#1 := by
  rw [arr3_term, maskRow_apply]

set_option maxHeartbeats 1000000 in
/-- The region's label array at merged row R is the specification's label of that row. -/
theorem arr5_apply (c : Dev nD) (R : Fin 4096) :
    (V m c main_v5 : S4096x1.Idx → BitVec 32) (ix2 R 0) = Cert.Spec.label (Ta m c) (seqOf R) (posOf R) := by
  have e : (V m c main_v5 : S4096x1.Idx → BitVec 32)
      = shapeCast S4096x1 (select (maskRow (Ta m c))
          (shapeCast S4096 (Ta m c) shapeCasts_S8x512_S4096 : IVec S4096 32)
          (broadcastInDim S4096 ![] bcast_S_S4096 (constantI S_ 32 0#32) : IVec S4096 32)) shapeCasts_S4096_S4096x1 := by
    dsimp only [V, V0, headOps]
    simp only [hostOps0, hostOps0_1, hostOps0_2, List.flatten_cons, List.flatten_nil, List.append_nil, List.cons_append, List.nil_append]
    after_results <;> (try simp only [StableHlo.TRef.ofBuf, StableHlo.TRef.toBuf, cast_eq]) <;> rfl
  rw [e, shapeCast_apply _ _ (ix2 R 0) (ix1 R) (colPos R), select_apply, maskRow_apply,
    shapeCast_apply (Ta m c) _ (ix1 R) (ix2 (seqOf R) (posOf R)) (rowPos R)]
  unfold Cert.Spec.label
  by_cases hx : Ta m c (ix2 (seqOf R) (posOf R)) = Cert.Spec.ignoreWord
  · rw [if_pos hx, if_pos hx, select_zero]; rfl
  · rw [if_neg hx, if_neg hx, select_one]

set_option maxHeartbeats 1000000 in
/-- The region's mask array at merged row R is the specification's mask of that row as a number. -/
theorem arr7_apply (c : Dev nD) (R : Fin 4096) :
    (V m c main_v7 : S4096x1.Idx → EReal) (ix2 R 0) = Cert.Spec.maskf (Ta m c) (seqOf R) (posOf R) := by
  have e : (V m c main_v7 : S4096x1.Idx → EReal)
      = shapeCast S4096x1 (uitofp .f32 (maskRow (Ta m c)) : FVec Ideal S4096 .f32) shapeCasts_S4096_S4096x1 := by
    dsimp only [V, V0, headOps]
    simp only [hostOps0, hostOps0_1, hostOps0_2, List.flatten_cons, List.flatten_nil, List.append_nil, List.cons_append, List.nil_append]
    after_results <;> rfl
  rw [e, shapeCast_apply _ _ (ix2 R 0) (ix1 R) (colPos R)]
  show (((maskRow (Ta m c) (ix1 R)).toNat : ℝ) : EReal) = _
  rw [maskRow_apply]
  unfold Cert.Spec.maskf
  by_cases hx : Ta m c (ix2 (seqOf R) (posOf R)) = Cert.Spec.ignoreWord
  · rw [if_pos hx, if_pos hx]; simp
  · rw [if_neg hx, if_neg hx]; simp

theorem coord1 : ∀ t : Fin cfg0.N, ((grid0.coords t) 1).val = t.val % 50 :=
  (by decide +kernel : ∀ t : Fin grid0.N, ((grid0.coords t) 1).val = t.val % 50)

theorem idx_rows : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = 0 ∧ win0_2.index t (1 : Fin 2) = t.val % 50
    ∧ win0_3.index t (0 : Fin 2) = t.val / 50 ∧ win0_3.index t (1 : Fin 2) = 0
    ∧ win0_4.index t (0 : Fin 2) = t.val / 50 ∧ win0_4.index t (1 : Fin 2) = 0 :=
  (by decide +kernel : ∀ t : Fin grid0.N, _)

theorem blk0_apply (c : Dev nD) (t : Fin cfg0.N) (p : Fin 1024) (h : Fin 2048) :
    (iblk m c 0 t : Vec Ideal S1024x2048 .bf16) (ix2 p h)
      = (V m c main_v9 : S4096x2048.Idx → EReal) (ix2 ⟨1024 * (t.val / 50) + p.val, by have := t.isLt; have := p.isLt; have : cfg0.N = 200 := N_0; omega⟩ h) := by
  obtain ⟨e0, e1, -⟩ := idx_rows t
  show (V m c main_v9 : S4096x2048.Idx → EReal) (((cfg0.win 0).blk t).view.emb (ix2 p h)) = _
  refine congrArg (V m c main_v9 : S4096x2048.Idx → EReal) ?_
  funext a; apply Fin.ext
  match a with
  | ⟨0, _⟩ => show win0_0.index t (0 : Fin 2) * 1024 + 1 * p.val = 1024 * (t.val / 50) + p.val; omega
  | ⟨1, _⟩ => show win0_0.index t (1 : Fin 2) * 2048 + 1 * h.val = h.val; omega

theorem blk1_apply (c : Dev nD) (t : Fin cfg0.N) (q : Fin 640) (h : Fin 2048) :
    (iblk m c 1 t : Vec Ideal S640x2048 .bf16) (ix2 q h)
      = (V m c main_v10 : S32000x2048.Idx → EReal) (ix2 ⟨640 * (t.val % 50) + q.val, by have := q.isLt; omega⟩ h) := by
  obtain ⟨-, -, e0, e1, -⟩ := idx_rows t
  show (V m c main_v10 : S32000x2048.Idx → EReal) (((cfg0.win 1).blk t).view.emb (ix2 q h)) = _
  refine congrArg (V m c main_v10 : S32000x2048.Idx → EReal) ?_
  funext a; apply Fin.ext
  match a with
  | ⟨0, _⟩ => show win0_1.index t (0 : Fin 2) * 640 + 1 * q.val = 640 * (t.val % 50) + q.val; omega
  | ⟨1, _⟩ => show win0_1.index t (1 : Fin 2) * 2048 + 1 * h.val = h.val; omega

theorem blk2_apply (c : Dev nD) (t : Fin cfg0.N) (q : Fin 640) :
    (iblk m c 2 t : Vec Ideal S1x640 .f32) (ix2 0 q)
      = (V m c main_v11 : S1x32000.Idx → EReal) (ix2 0 ⟨640 * (t.val % 50) + q.val, by have := q.isLt; omega⟩) := by
  obtain ⟨-, -, -, -, e0, e1, -⟩ := idx_rows t
  show (V m c main_v11 : S1x32000.Idx → EReal) (((cfg0.win 2).blk t).view.emb (ix2 0 q)) = _
  refine congrArg (V m c main_v11 : S1x32000.Idx → EReal) ?_
  funext a; apply Fin.ext
  match a with
  | ⟨0, _⟩ => show win0_2.index t (0 : Fin 2) * 1 + 1 * 0 = 0; omega
  | ⟨1, _⟩ => show win0_2.index t (1 : Fin 2) * 640 + 1 * q.val = 640 * (t.val % 50) + q.val; omega

theorem blk3_apply (c : Dev nD) (t : Fin cfg0.N) (p : Fin 1024) :
    (iblk m c 3 t : Vec Ideal S1024x1 .i32) (ix2 p 0)
      = (V m c main_v5 : S4096x1.Idx → BitVec 32) (ix2 ⟨1024 * (t.val / 50) + p.val, by have := t.isLt; have := p.isLt; have : cfg0.N = 200 := N_0; omega⟩ 0) := by
  obtain ⟨-, -, -, -, -, -, e0, e1, -⟩ := idx_rows t
  show (V m c main_v5 : S4096x1.Idx → BitVec 32) (((cfg0.win 3).blk t).view.emb (ix2 p 0)) = _
  refine congrArg (V m c main_v5 : S4096x1.Idx → BitVec 32) ?_
  funext a; apply Fin.ext
  match a with
  | ⟨0, _⟩ => show win0_3.index t (0 : Fin 2) * 1024 + 1 * p.val = 1024 * (t.val / 50) + p.val; omega
  | ⟨1, _⟩ => show win0_3.index t (1 : Fin 2) * 1 + 1 * 0 = 0; omega

theorem blk4_apply (c : Dev nD) (t : Fin cfg0.N) (p : Fin 1024) :
    (iblk m c 4 t : Vec Ideal S1024x1 .f32) (ix2 p 0)
      = (V m c main_v7 : S4096x1.Idx → EReal) (ix2 ⟨1024 * (t.val / 50) + p.val, by have := t.isLt; have := p.isLt; have : cfg0.N = 200 := N_0; omega⟩ 0) := by
  obtain ⟨-, -, -, -, -, -, -, -, e0, e1⟩ := idx_rows t
  show (V m c main_v7 : S4096x1.Idx → EReal) (((cfg0.win 4).blk t).view.emb (ix2 p 0)) = _
  refine congrArg (V m c main_v7 : S4096x1.Idx → EReal) ?_
  funext a; apply Fin.ext
  match a with
  | ⟨0, _⟩ => show win0_4.index t (0 : Fin 2) * 1024 + 1 * p.val = 1024 * (t.val / 50) + p.val; omega
  | ⟨1, _⟩ => show win0_4.index t (1 : Fin 2) * 1 + 1 * 0 = 0; omega

abbrev rowOf (t : Fin cfg0.N) (p : Fin 1024) : Fin 4096 :=
  ⟨1024 * (t.val / 50) + p.val, by have := t.isLt; have := p.isLt; have : cfg0.N = 200 := N_0; omega⟩

abbrev vocOf (t : Fin cfg0.N) (q : Fin 640) : Fin 32000 :=
  ⟨640 * (t.val % 50) + q.val, by have := q.isLt; omega⟩

/-- A chunk's logits at (p, q) are the specification's logits of the row and vocabulary entry the position names. -/
theorem logits_apply (c : Dev nD) (t : Fin cfg0.N) (p : Fin 1024) (q : Fin 640) :
    k0_pay8 (F := Ideal) (iblk m c 0 t) (iblk m c 1 t) (iblk m c 2 t) (ix2 p q)
      = Cert.Spec.logit (Wa m c) (Xa m c) (Ba m c) (seqOf (rowOf t p)) (posOf (rowOf t p)) (vocOf t q) := by
  rw [pay8_apply]
  unfold Cert.Spec.logit
  rw [blk2_apply, arr11_apply]
  congr 1
  refine Finset.sum_congr rfl fun h _ => ?_
  rw [blk0_apply, blk1_apply, arr9_apply, arr10_apply]

end Cert.KernelIdeal.Val

end
-- ==== Proof.KIFinal.lean ====
import proofs.«419790_j22101901705594_3_alg».proof.Proof.KIFrame
import proofs.«419790_j22101901705594_3_alg».proof.Proof.KILink
import proofs.«419790_j22101901705594_3_alg».proof.Proof.KIRows
import proofs.«419790_j22101901705594_3_alg».proof.Proof.KIBlocks
import proofs.«419790_j22101901705594_3_alg».proof.Proof.KIPay
import proofs.«419790_j22101901705594_3_alg».proof.Proof.Spec
import proofs.«419790_j22101901705594_3_alg».proof.Proof.LibOnlineSoftmax
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.ValueIdx
open scoped BigOperators

variable (m : (ℓ : Loc nD τ sig) → Buf (Elt Ideal) ℓ)

theorem lastPt_lt (R : Fin 4096) : 50 * (R.val / 1024) + 49 < cfg0.N := by
  rw [show cfg0.N = 200 from N_0]; have := R.isLt; omega

/-- The output array assembled from the columns the last chunk of each row block stores. -/
def G5 (c : Dev nD) : Vec Ideal S4096x1 .f32 := fun i =>
  (outsAt0 m c (50 * ((i 0 : Fin 4096).val / 1024) + 49) (lastPt_lt (i 0))).1
    (ix2 (⟨(i 0 : Fin 4096).val % 1024, Nat.mod_lt _ (by decide)⟩ : Fin 1024) 0)

theorem outs_congr (c : Dev nD) (n n' : ℕ) (hn : n < cfg0.N) (hn' : n' < cfg0.N) (e : n = n') (p p' : Fin 1024)
    (ep : p.val = p'.val) : (outsAt0 m c n hn).1 (ix2 p 0) = (outsAt0 m c n' hn').1 (ix2 p' 0) := by
  subst e; obtain rfl : p = p' := Fin.ext ep; rfl

theorem idx_facts5 : ∀ t : Fin cfg0.N, win0_5.index t (0 : Fin 2) = t.val / 50 ∧ win0_5.index t (1 : Fin 2) = 0 :=
  (by decide +kernel : ∀ t : Fin grid0.N, _)

theorem flushed5_eq (c : Dev nD) (t : Fin cfg0.N) (hf : (cfg0.win 5).flush t = true) :
    (dats m 0 c).flushed 5 t = ((cfg0.win 5).blk t).view.read (Elt Ideal) (G5 m c) := by
  have h49 : t.val % 50 = 49 := (flush0_5 t).mp hf
  show (cfg0.win 5).cut (grid0.coords t) ((dats m 0 c).after 5 t) = _
  rw [after0_5]
  funext j
  show (outsAt0 m c t.val t.isLt).1 j = G5 m c (((cfg0.win 5).blk t).view.emb j)
  obtain ⟨e0, e1⟩ := idx_facts5 t
  have hjlt : ((j 0 : Fin 1024)).val < 1024 := (j 0).isLt
  have hj : j = ix2 (j 0 : Fin 1024) (0 : Fin 1) := by
    funext a
    match a with
    | ⟨0, _⟩ => rfl
    | ⟨1, _⟩ => exact Fin.ext (by have : ((j 1 : Fin 1)).val < 1 := (j 1).isLt; show (j 1).val = 0; omega)
  have hE : ((((cfg0.win 5).blk t).view.emb j) 0 : Fin 4096).val = win0_5.index t (0 : Fin 2) * 1024 + 1 * (j 0 : Fin 1024).val := rfl
  refine (congrArg (outsAt0 m c t.val t.isLt).1 hj).trans ?_
  unfold G5
  have htl : t.val < 200 := lt_of_lt_of_eq t.isLt N_0
  exact outs_congr m c _ _ _ _ (by rw [hE, e0]; omega) _ _ (by show (j 0 : Fin 1024).val = _ % 1024; rw [hE, e0]; omega)

theorem mem_blk5 (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v12).slice (win0_5.rect t)).set ↔ _
  rw [View.set_slice_whole, Rect.mem_set_unit]
  exact Iff.rfl

/-- Row R of the output is written once, by position 50 (R / 1024) + 49, and these positions cover every row. -/
theorem final5 (c : Dev nD) : (dats m 0 c).arrAt 5 cfg0.N = G5 m c :=
  (dats m 0 c).arrAt_eq_of_cover 5 (G5 m c) (flushed5_eq m c) fun i => by
    have hi0 : (i 0 : Fin 4096).val < 4096 := (i 0).isLt
    have hi1 : (i 1 : Fin 1).val < 1 := (i 1).isLt
    have hlt : 50 * ((i 0 : Fin 4096).val / 1024) + 49 < cfg0.N := lastPt_lt (i 0)
    refine ⟨⟨50 * ((i 0 : Fin 4096).val / 1024) + 49, hlt⟩, (flush0_5 _).mpr (by show (50 * ((i 0 : Fin 4096).val / 1024) + 49) % 50 = 49; omega), ?_⟩
    rw [mem_blk5]
    obtain ⟨e0, e1⟩ := idx_facts5 ⟨50 * ((i 0 : Fin 4096).val / 1024) + 49, hlt⟩
    intro a
    match a with
    | ⟨0, _⟩ =>
      show win0_5.index _ (0 : Fin 2) * 1024 ≤ (i 0 : Fin 4096).val ∧ (i 0 : Fin 4096).val < win0_5.index _ (0 : Fin 2) * 1024 + 1024
      rw [e0]; show (50 * ((i 0 : Fin 4096).val / 1024) + 49) / 50 * 1024 ≤ _ ∧ _ < (50 * ((i 0 : Fin 4096).val / 1024) + 49) / 50 * 1024 + 1024
      omega
    | ⟨1, _⟩ =>
      show win0_5.index _ (1 : Fin 2) * 1 ≤ (i 1 : Fin 1).val ∧ (i 1 : Fin 1).val < win0_5.index _ (1 : Fin 2) * 1 + 1
      rw [e1]; omega

theorem logit_real (W : FVec Ideal Cert.Spec.SW .f32) (X : FVec Ideal Cert.Spec.SX .f32) (bias : FVec Ideal Cert.Spec.SB .f32)
    (hW : ∀ i, ∃ r : ℝ, W i = (r : EReal)) (hX : ∀ i, ∃ r : ℝ, X i = (r : EReal)) (hb : ∀ i, ∃ r : ℝ, bias i = (r : EReal))
    (b : Fin 8) (t : Fin 512) (v : Fin 32000) : ∃ r : ℝ, Cert.Spec.logit W X bias b t v = (r : EReal) := by
  choose w hw using hW
  choose x hx using hX
  choose bb hbb using hb
  refine ⟨(∑ h : Fin 2048, x (ix3 b t h) * w (ix2 v h)) + bb (ix1 v), ?_⟩
  have h1 : (∑ h : Fin 2048, X (ix3 b t h) * W (ix2 v h))
      = ((∑ h : Fin 2048, x (ix3 b t h) * w (ix2 v h) : ℝ) : EReal) := by
    refine Eq.trans ?_ (Cert.OnlineSoftmax.coe_finset_sum Finset.univ fun h : Fin 2048 => x (ix3 b t h) * w (ix2 v h)).symm
    refine Finset.sum_congr rfl fun h _ => ?_
    exact (congrArg₂ (· * ·) (hx _) (hw _)).trans (EReal.coe_mul _ _).symm
  have h2 : bias (ix1 v) = ((bb (ix1 v) : ℝ) : EReal) := hbb _
  exact (congrArg₂ (· + ·) h1 h2).trans (EReal.coe_add _ _).symm

theorem label_lt (tgt : IVec Cert.Spec.ST 32) (ht : ∀ i, tgt i = Cert.Spec.ignoreWord ∨ (tgt i).toNat < 32000) (b : Fin 8) (t : Fin 512) :
    (Cert.Spec.label tgt b t).toNat < 32000 := by
  unfold Cert.Spec.label
  split
  · decide
  · rename_i h
    rcases ht (ix2 b t) with h' | h'
    · exact absurd h' h
    · exact h'

abbrev rowAt (n : ℕ) (hn : n < 200) (p : Fin 1024) : Fin 4096 :=
  ⟨1024 * (n / 50) + p.val, by have := p.isLt; omega⟩

section Entries

variable (hW : ∀ c i, ∃ r : ℝ, Wa m c i = (r : EReal)) (hX : ∀ c i, ∃ r : ℝ, Xa m c i = (r : EReal))
  (hb : ∀ c i, ∃ r : ℝ, Ba m c i = (r : EReal))
  (ht : ∀ c i, Ta m c i = Cert.Spec.ignoreWord ∨ (Ta m c i).toNat < 32000)
include hW hX hb ht

theorem out_row (c : Dev nD) (n : ℕ) (hn : n < cfg0.N) (h49 : n % 50 = 49) (p : Fin 1024) :
    (outsAt0 m c n hn).1 (ix2 p 0)
      = Cert.Spec.ptlAt (Wa m c) (Xa m c) (Ta m c) (Ba m c)
          (seqOf (rowAt n (lt_of_lt_of_eq hn N_0) p)) (posOf (rowAt n (lt_of_lt_of_eq hn N_0) p)) := by
  have hN : cfg0.N = 200 := N_0
  have hn2 : n < 200 := lt_of_lt_of_eq hn N_0
  obtain ⟨zr, hzr⟩ : ∃ zr : Fin 4096 → Fin 32000 → ℝ, ∀ R' v,
      Cert.Spec.logit (Wa m c) (Xa m c) (Ba m c) (seqOf R') (posOf R') v = ((zr R' v : ℝ) : EReal) := by
    choose zr hzr using fun (R' : Fin 4096) (v : Fin 32000) =>
      logit_real (Wa m c) (Xa m c) (Ba m c) (hW c) (hX c) (hb c) (seqOf R') (posOf R') v
    exact ⟨zr, hzr⟩
  have hlt : ∀ R' : Fin 4096, (Cert.Spec.label (Ta m c) (seqOf R') (posOf R')).toNat < 32000 :=
    fun R' => label_lt (Ta m c) (ht c) _ _
  have key := rows_final I0 (X0 m c) (X1 m c) (X2 m c) (X3 m c) zr
    (fun R' => Cert.Spec.label (Ta m c) (seqOf R') (posOf R'))
    (fun k hk => by rw [I0_eq k (by omega)]; exact coord1 ⟨k, by omega⟩)
    (fun k hk p' q => by
      have hk' : k < cfg0.N := by omega
      rw [X0_eq m c k hk', X1_eq m c k hk', X2_eq m c k hk']
      exact (logits_apply m c ⟨k, hk'⟩ p' q).trans (hzr _ _))
    (fun k hk p' => by
      have hk' : k < cfg0.N := by omega
      rw [X3_eq m c k hk']
      exact (blk3_apply m c ⟨k, hk'⟩ p').trans (arr5_apply m c _))
    hlt n hn2 h49 (X4 m c n) p
  rw [out_last m c n hn h49]
  refine key.trans ?_
  have hmask : X4 m c n (ix2 p 0) = Cert.Spec.maskf (Ta m c) (seqOf (rowAt n hn2 p)) (posOf (rowAt n hn2 p)) := by
    rw [X4_eq m c n hn]
    exact (blk4_apply m c ⟨n, hn⟩ p).trans (arr7_apply m c _)
  have hfun : (fun v => ((zr (rowAt n hn2 p) v : ℝ) : EReal))
      = Cert.Spec.logit (Wa m c) (Xa m c) (Ba m c) (seqOf (rowAt n hn2 p)) (posOf (rowAt n hn2 p)) :=
    funext fun v => (hzr _ v).symm
  have hidx : (⟨(Cert.Spec.label (Ta m c) (seqOf (rowAt n hn2 p)) (posOf (rowAt n hn2 p))).toNat, hlt _⟩ : Fin 32000)
      = Cert.Spec.labelIdx (Ta m c) (seqOf (rowAt n hn2 p)) (posOf (rowAt n hn2 p)) :=
    Fin.ext (Nat.mod_eq_of_lt (hlt _)).symm
  have e1 : ((zr (rowAt n hn2 p) ⟨(Cert.Spec.label (Ta m c) (seqOf (rowAt n hn2 p)) (posOf (rowAt n hn2 p))).toNat, hlt _⟩ : ℝ) : EReal)
      = Cert.Spec.logit (Wa m c) (Xa m c) (Ba m c) (seqOf (rowAt n hn2 p)) (posOf (rowAt n hn2 p))
          (Cert.Spec.labelIdx (Ta m c) (seqOf (rowAt n hn2 p)) (posOf (rowAt n hn2 p))) :=
    (hzr _ _).symm.trans (congrArg _ hidx)
  unfold Cert.Spec.ptlAt
  rw [hmask, ← e1, ← hfun]

/-- Entry R of the output is the specification's masked log-softmax of row R at its label. -/
theorem final5_apply (c : Dev nD) (R : Fin 4096) :
    ((dats m 0 c).arrAt 5 cfg0.N : Vec Ideal S4096x1 .f32) (ix2 R 0)
      = Cert.Spec.ptlAt (Wa m c) (Xa m c) (Ta m c) (Ba m c) (seqOf R) (posOf R) := by
  have hR := R.isLt
  have hnlt : 50 * (R.val / 1024) + 49 < cfg0.N := lastPt_lt R
  have e : rowAt (50 * (R.val / 1024) + 49) (lt_of_lt_of_eq hnlt N_0) ⟨R.val % 1024, Nat.mod_lt _ (by decide)⟩ = R :=
    Fin.ext (by show 1024 * ((50 * (R.val / 1024) + 49) / 50) + R.val % 1024 = R.val; omega)
  have h := out_row m hW hX hb ht c (50 * (R.val / 1024) + 49) hnlt (by omega) ⟨R.val % 1024, Nat.mod_lt _ (by decide)⟩
  rw [e] at h
  rw [final5]
  exact h

end Entries

end Cert.KernelIdeal.Val

end
-- ==== Proof.KIRun.lean ====
import proofs.«419790_j22101901705594_3_alg».proof.Proof.KIFinal

set_option maxRecDepth 16384

noncomputable section

namespace Cert.KernelIdeal.Val

open Cert.KernelIdeal Cert.KernelIdeal.Gen Cert.KernelIdeal.Fr Idealize.ShloMosaic Idealize.ShloMosaic.ValueIdx
open Idealize.ShloMosaic.TcCoe
open scoped BigOperators

theorem tfK : Cert.Spec.TailFacts :=
  ⟨reducesTo_S8x512_S8_d1, h_S_, natLt_1_32, slices_S8_S4_0, slices_S8_S4_4, slices_S8x512_S4x512_0_0,
    reducesTo_S4x512_S_d0_1, bcast_S_S4, reducesTo_S4_S_d0⟩

section Generic

variable {F : FTy → Type} [FloatOps F]
set_option maxHeartbeats 4000000 in
/-- The host operations after the region compute the shared chain of the region's output and of the mask, each regrouped from 4096 rows to 8 × 512. -/
theorem tail_after (W : Valuation τ sig (Elt F)) :
    StableHlo.after (List.flatten (tailOps (F := F))) W (Proc.devRef .tc main_v47)
      = Cert.Spec.tail (F := F) tfK
          (shapeCast S8x512 (W (Proc.devRef .tc main_v12) : S4096x1.Idx → F .f32) shapeCasts_S4096x1_S8x512)
          (shapeCast S8x512 (W (Proc.devRef .tc main_v3) : S4096.Idx → BitVec 1) shapeCasts_S4096_S8x512) := by
  simp only [tailOps, hostOps1, hostOps1_1, hostOps1_2, hostOps1_3, hostOps1_4, List.flatten_cons, List.flatten_nil,
    List.append_nil, List.cons_append, List.nil_append]
  after_results_simp
  rfl

end Generic

variable (m : (ℓ : Loc nD τ sig) → Buf (Elt Ideal) ℓ)

/-- Entry (b, t) of the regrouped array is row 512 b + t. -/
theorem regroup_col {α : Type} (A : S4096x1.Idx → α) (b : Fin 8) (t : Fin 512) :
    shapeCast S8x512 A shapeCasts_S4096x1_S8x512 (ix2 b t)
      = A (ix2 ⟨512 * b.val + t.val, by have := b.isLt; have := t.isLt; omega⟩ 0) := by
  refine shapeCast_apply A shapeCasts_S4096x1_S8x512 _ _ ?_
  rw [Shape.rowMajor_val_two, Shape.rowMajor_val_two]
  show (512 * b.val + t.val) * 1 + 0 = b.val * 512 + t.val
  omega

theorem regroup_vec {α : Type} (A : S4096.Idx → α) (b : Fin 8) (t : Fin 512) :
    shapeCast S8x512 A shapeCasts_S4096_S8x512 (ix2 b t)
      = A (ix1 ⟨512 * b.val + t.val, by have := b.isLt; have := t.isLt; omega⟩) := by
  refine shapeCast_apply A shapeCasts_S4096_S8x512 _ _ ?_
  rw [Shape.rowMajor_val_one, Shape.rowMajor_val_two]
  show 512 * b.val + t.val = b.val * 512 + t.val
  omega

theorem seqOf_mk (b : Fin 8) (t : Fin 512) (h : 512 * b.val + t.val < 4096) : seqOf ⟨512 * b.val + t.val, h⟩ = b :=
  Fin.ext (by show (512 * b.val + t.val) / 512 = b.val; have := t.isLt; omega)
theorem posOf_mk (b : Fin 8) (t : Fin 512) (h : 512 * b.val + t.val < 4096) : posOf ⟨512 * b.val + t.val, h⟩ = t :=
  Fin.ext (by show (512 * b.val + t.val) % 512 = t.val; have := t.isLt; omega)

theorem P_eq (c : Dev nD) (A : S4096x1.Idx → EReal)
    (hA : ∀ R : Fin 4096, A (ix2 R 0) = Cert.Spec.ptlAt (Wa m c) (Xa m c) (Ta m c) (Ba m c) (seqOf R) (posOf R)) :
    shapeCast S8x512 A shapeCasts_S4096x1_S8x512 = Cert.Spec.ptl (Wa m c) (Xa m c) (Ta m c) (Ba m c) := by
  funext i
  obtain ⟨b, t, rfl⟩ : ∃ (b : Fin 8) (t : Fin 512), i = ix2 b t := ⟨i 0, i 1, eq_ix2 i⟩
  rw [regroup_col, hA, seqOf_mk, posOf_mk]
  rfl

theorem K_eq (c : Dev nD) :
    shapeCast S8x512 (V m c main_v3 : S4096.Idx → BitVec 1) shapeCasts_S4096_S8x512 = Cert.Spec.maskBits (Ta m c) := by
  funext i
  obtain ⟨b, t, rfl⟩ : ∃ (b : Fin 8) (t : Fin 512), i = ix2 b t := ⟨i 0, i 1, eq_ix2 i⟩
  rw [regroup_vec, arr3_eq, seqOf_mk, posOf_mk]
  rfl

theorem run (g : Dev nD → PrngReg)
    (hW : ∀ c i, ∃ r : ℝ, Wa m c i = (r : EReal)) (hX : ∀ c i, ∃ r : ℝ, Xa m c i = (r : EReal))
    (hb : ∀ c i, ∃ r : ℝ, Ba m c i = (r : EReal))
    (ht : ∀ c i, Ta m c i = Cert.Spec.ignoreWord ∨ (Ta m c i).toNat < 32000) :
    θ_run (defs (F := Ideal)) (onTc (τ := τ) (main (F := Ideal))) ⟨m, fun _ => 0, g⟩ (fun r => ∀ c : Dev nD,
      r.2.mem ((c.tc : Thread nD τ).loc main_v47) = Cert.Spec.result tfK (Wa m c) (Xa m c) (Ta m c) (Ba m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have keyRes : ∀ (c : Dev nD) (r : PUnit × MemSt nD τ sig (Elt Ideal)),
      Pipeline.FramePost cfgs (dats m) 0 (Pipeline.afterTail₀ cfgs (dats m) 0 (V0 m) tailOps) r →
        r.2.mem ((c.tc : Thread nD τ).loc main_v47) = Cert.Spec.result tfK (Wa m c) (Xa m c) (Ta m c) (Ba m c) := by
    intro c r hr
    refine ((hr c).2 main_v47 (Pipeline.mem_restRefs_of main_v47 (by decide) (by decide))).trans ?_
    unfold Pipeline.afterTail₀
    have hP : shapeCast S8x512 (Pipeline.withArrays spec0 c (V0 m c) (fun w => (dats m 0 c).arrAt w cfg0.N) (Proc.devRef .tc main_v12) : S4096x1.Idx → EReal) shapeCasts_S4096x1_S8x512
        = Cert.Spec.ptl (Wa m c) (Xa m c) (Ta m c) (Ba m c) := by
      rw [show Pipeline.withArrays spec0 c (V0 m c) (fun w => (dats m 0 c).arrAt w cfg0.N) (Proc.devRef .tc main_v12) = (dats m 0 c).arrAt 5 cfg0.N from
        Pipeline.withArrays_arr spec0 launch0.win.arr_inj c _ _ 5]
      exact P_eq m c _ (final5_apply m hW hX hb ht c)
    have hK : shapeCast S8x512 (Pipeline.withArrays spec0 c (V0 m c) (fun w => (dats m 0 c).arrAt w cfg0.N) (Proc.devRef .tc main_v3) : S4096.Idx → BitVec 1) shapeCasts_S4096_S8x512
        = Cert.Spec.maskBits (Ta m c) := by
      rw [show Pipeline.withArrays spec0 c (V0 m c) (fun w => (dats m 0 c).arrAt w cfg0.N) (Proc.devRef .tc main_v3) = V m c main_v3 from Pipeline.withArrays_of_ne spec0 c _ _ main_v3 (by decide)]
      exact K_eq m c
    exact (tail_after (F := Ideal) _).trans (congrArg₂ (Cert.Spec.tail (F := Ideal) tfK) hP hK)
  exact (θ_run defs _ _).mono (fun r hr c =>
    ⟨keyRes c r hr, arg_kept m (dats m) c (by decide) r hr, arg_kept m (dats m) c (by decide) r hr,
     arg_kept m (dats m) c (by decide) r hr, arg_kept m (dats m) c (by decide) r hr⟩) (run_main m g)

end Cert.KernelIdeal.Val

end
-- ==== Proof.LibTypedOps.lean ====
import Idealize.ShloMosaic.Lib.StableHlo

namespace Idealize.ShloMosaic.StableHlo.TRef

open Idealize.ShloMosaic.TcCoe

variable {τ : Topo} {sig : RefSig} {Val : EltTy → Type}

theorem nullary_plain {Ty : BufTy} (y : TRef sig Ty) (v : Ty.Contents Val) (v' : y.ref.ty.Contents Val) (hv : HEq v v')
    (hy : y.ref.space ≠ .host ∧ (y.ref : DevRef τ sig).isScoped = false) :
    TRef.nullary (τ := τ) y v = StableHlo.nullary y.ref v' hy := by
  obtain ⟨r, rfl, d, u⟩ := y
  cases hv
  rfl

/-- An operation written over typed references is the plain one on their buffers, at the same function. -/
theorem unary_plain {Tx Ty : BufTy} (x : TRef sig Tx) (y : TRef sig Ty) (f : Tx.Contents Val → Ty.Contents Val)
    (f' : x.ref.ty.Contents Val → y.ref.ty.Contents Val) (hf : HEq f f')
    (hx : x.ref.space ≠ .host ∧ (x.ref : DevRef τ sig).isScoped = false)
    (hy : y.ref.space ≠ .host ∧ (y.ref : DevRef τ sig).isScoped = false) :
    TRef.unary (τ := τ) x y f = StableHlo.unary x.ref y.ref f' hx hy := by
  obtain ⟨rx, rfl, dx, ux⟩ := x
  obtain ⟨ry, rfl, dy, uy⟩ := y
  cases hf
  rfl

theorem binary_plain {Ta Tb Ty : BufTy} (a : TRef sig Ta) (b : TRef sig Tb) (y : TRef sig Ty)
    (f : Ta.Contents Val → Tb.Contents Val → Ty.Contents Val)
    (f' : a.ref.ty.Contents Val → b.ref.ty.Contents Val → y.ref.ty.Contents Val) (hf : HEq f f')
    (ha : a.ref.space ≠ .host ∧ (a.ref : DevRef τ sig).isScoped = false)
    (hb : b.ref.space ≠ .host ∧ (b.ref : DevRef τ sig).isScoped = false)
    (hy : y.ref.space ≠ .host ∧ (y.ref : DevRef τ sig).isScoped = false) :
    TRef.binary (τ := τ) a b y f = StableHlo.binary a.ref b.ref y.ref f' ha hb hy := by
  obtain ⟨ra, rfl, da, ua⟩ := a
  obtain ⟨rb, rfl, db, ub⟩ := b
  obtain ⟨ry, rfl, dy, uy⟩ := y
  cases hf
  rfl

theorem ternary_plain {Tc Ta Tb Ty : BufTy} (c : TRef sig Tc) (a : TRef sig Ta) (b : TRef sig Tb) (y : TRef sig Ty)
    (f : Tc.Contents Val → Ta.Contents Val → Tb.Contents Val → Ty.Contents Val)
    (f' : c.ref.ty.Contents Val → a.ref.ty.Contents Val → b.ref.ty.Contents Val → y.ref.ty.Contents Val) (hf : HEq f f')
    (hc : c.ref.space ≠ .host ∧ (c.ref : DevRef τ sig).isScoped = false)
    (ha : a.ref.space ≠ .host ∧ (a.ref : DevRef τ sig).isScoped = false)
    (hb : b.ref.space ≠ .host ∧ (b.ref : DevRef τ sig).isScoped = false)
    (hy : y.ref.space ≠ .host ∧ (y.ref : DevRef τ sig).isScoped = false) :
    TRef.ternary (τ := τ) c a b y f = StableHlo.ternary c.ref a.ref b.ref y.ref f' hc ha hb hy := by
  obtain ⟨rc, rfl, dc, uc⟩ := c
  obtain ⟨ra, rfl, da, ua⟩ := a
  obtain ⟨rb, rfl, db, ub⟩ := b
  obtain ⟨ry, rfl, dy, uy⟩ := y
  cases hf
  rfl

theorem reshape_plain {Tx Ty : BufTy} (x : TRef sig Tx) (y : TRef sig Ty) (he : Tx.elt = Ty.elt)
    (hn : Tx.shape.ShapeCasts Ty.shape) (he' : x.ref.ty.elt = y.ref.ty.elt) (hn' : x.ref.ty.shape.ShapeCasts y.ref.ty.shape)
    (hx : x.ref.space ≠ .host ∧ (x.ref : DevRef τ sig).isScoped = false)
    (hy : y.ref.space ≠ .host ∧ (y.ref : DevRef τ sig).isScoped = false) :
    TRef.reshape (τ := τ) (Val := Val) x y he hn = StableHlo.reshape x.ref y.ref he' hn' hx hy := by
  obtain ⟨rx, rfl, dx, ux⟩ := x
  obtain ⟨ry, rfl, dy, uy⟩ := y
  rfl

end Idealize.ShloMosaic.StableHlo.TRef
-- ==== Proof.RefStages.lean ====
import proofs.«419790_j22101901705594_3_alg».proof.ReferenceIdeal

noncomputable section

namespace Cert.ReferenceIdeal.Hand

open Idealize.ShloMosaic Idealize.SL.Sem
open Cert.ReferenceIdeal Cert.ReferenceIdeal.Facts₀

variable {F : FTy → Type} [FloatOps F] [Facts]

def val_v0 (W : FVec F S32000x2048 .f32) (X : FVec F S8x512x2048 .f32) : FVec F S8x512x32000 .f32 :=
  Host.dotGeneral dot_S8x512x2048_S32000x2048_S8x512x32000_2_1_01_0_n_n none X W

def val_v1 (bias : FVec F S32000 .f32) : FVec F S1x1x32000 .f32 :=
  broadcastInDim S1x1x32000 ![2] bcast_S32000_S1x1x32000_2 bias

def val_v2 (bias : FVec F S32000 .f32) : FVec F S8x512x32000 .f32 :=
  broadcastInDim S8x512x32000 ![0, 1, 2] bcast_S1x1x32000_S8x512x32000_0_1_2 (val_v1 bias)

/-- The logits. -/
def val_v3 (W : FVec F S32000x2048 .f32) (X : FVec F S8x512x2048 .f32) (bias : FVec F S32000 .f32) :
    FVec F S8x512x32000 .f32 :=
  addf (val_v0 W X) (val_v2 bias)

def ls_v0 (z : FVec F S8x512x32000 .f32) : FVec F S8x512 .f32 :=
  Host.reduce FloatOps.maximumf z (constant S_ .f32 0xFF800000#32) reducesTo_S8x512x32000_S8x512_d2 h_S_

def ls_v1 : FVec F S8x512 .f32 :=
  broadcastInDim S8x512 ![] bcast_S_S8x512 (constant S_ .f32 0xFF800000#32)

def ls_v2 (z : FVec F S8x512x32000 .f32) : FVec F S8x512 .f32 :=
  maximumf (ls_v1 (F := F)) (ls_v0 z)

def ls_v3 (z : FVec F S8x512x32000 .f32) : FVec F S8x512x1 .f32 :=
  broadcastInDim S8x512x1 ![0, 1] bcast_S8x512_S8x512x1_0_1 (ls_v2 z)

def ls_v4 (z : FVec F S8x512x32000 .f32) : FVec F S8x512x32000 .f32 :=
  broadcastInDim S8x512x32000 ![0, 1, 2] bcast_S8x512x1_S8x512x32000_0_1_2 (ls_v3 z)

def ls_v5 (z : FVec F S8x512x32000 .f32) : FVec F S8x512x32000 .f32 :=
  subf z (ls_v4 z)

def ls_v6 (z : FVec F S8x512x32000 .f32) : FVec F S8x512x32000 .f32 :=
  Host.exp (ls_v5 z)

def ls_v7 (z : FVec F S8x512x32000 .f32) : FVec F S8x512 .f32 :=
  Host.reduceAdd (ls_v6 z) (constant S_ .f32 0x00000000#32) reducesTo_S8x512x32000_S8x512_d2 h_S_

def ls_v8 (z : FVec F S8x512x32000 .f32) : FVec F S8x512x1 .f32 :=
  broadcastInDim S8x512x1 ![0, 1] bcast_S8x512_S8x512x1_0_1 (ls_v7 z)

def ls_v9 (z : FVec F S8x512x32000 .f32) : FVec F S8x512x1 .f32 :=
  Host.log (ls_v8 z)

def ls_v10 (z : FVec F S8x512x32000 .f32) : FVec F S8x512x32000 .f32 :=
  broadcastInDim S8x512x32000 ![0, 1, 2] bcast_S8x512x1_S8x512x32000_0_1_2 (ls_v9 z)

/-- The log-softmax of the logits along the vocabulary. -/
def ls_v11 (z : FVec F S8x512x32000 .f32) : FVec F S8x512x32000 .f32 :=
  subf (ls_v5 z) (ls_v10 z)

def val_v4 (W : FVec F S32000x2048 .f32) (X : FVec F S8x512x2048 .f32) (bias : FVec F S32000 .f32) :
    FVec F S8x512x32000 .f32 :=
  ls_v11 (val_v3 W X bias)

def val_v6 (tgt : IVec S8x512 32) : IVec S8x512 1 :=
  cmpi .ne tgt (broadcastInDim S8x512 ![] bcast_S_S8x512 (constantI S_ 32 4294967196#32))

def val_v7 (tgt : IVec S8x512 32) : IVec S8x512 32 :=
  select (val_v6 tgt) tgt (broadcastInDim S8x512 ![] bcast_S_S8x512 (id (constantI S_ 32 0#32)))

def val_v8 (tgt : IVec S8x512 32) : IVec S8x512x1 32 :=
  broadcastInDim S8x512x1 ![0, 1] bcast_S8x512_S8x512x1_0_1 (val_v7 tgt)

def ta_v0 : IVec S8x512x1 32 :=
  broadcastInDim S8x512x1 ![] bcast_S_S8x512x1 (constantI S_ 32 0#32)

def ta_v1 (idx : IVec S8x512x1 32) : IVec S8x512x1 1 :=
  cmpi .slt idx ta_v0

def ta_v2 : IVec S8x512x1 32 :=
  broadcastInDim S8x512x1 ![] bcast_S_S8x512x1 (constantI S_ 32 32000#32)

def ta_v3 (idx : IVec S8x512x1 32) : IVec S8x512x1 32 :=
  addi idx ta_v2

def ta_v4 (idx : IVec S8x512x1 32) : IVec S8x512x1 32 :=
  select (ta_v1 idx) (ta_v3 idx) idx

def ta_v5 (idx : IVec S8x512x1 32) : IVec S8x512x1x1 32 :=
  shapeCast S8x512x1x1 (ta_v4 idx) shapeCasts_S8x512x1_S8x512x1x1

def ta_v6 : IVec S8x512x1x1 32 :=
  broadcastInDim S8x512x1x1 ![] bcast_S_S8x512x1x1 (constantI S_ 32 0#32)

def ta_v7 (idx : IVec S8x512x1 32) : IVec S8x512x1x1 1 :=
  cmpi .sge (ta_v5 idx) ta_v6

def ta_v8 : IVec S1x1x1x1 32 :=
  broadcastInDim S1x1x1x1 ![3] bcast_S1_S1x1x1x1_3 (constantI S1 32 31999#32)

def ta_v9 : IVec S8x512x1x1 32 :=
  broadcastInDim S8x512x1x1 ![0, 1, 2, 3] bcast_S1x1x1x1_S8x512x1x1_0_1_2_3 ta_v8

def ta_v10 (idx : IVec S8x512x1 32) : IVec S8x512x1x1 1 :=
  cmpi .sle (ta_v5 idx) ta_v9

def ta_v11 (idx : IVec S8x512x1 32) : IVec S8x512x1x1 1 :=
  andi (ta_v7 idx) (ta_v10 idx)

def ta_v12 (idx : IVec S8x512x1 32) : IVec S8x512x1 1 :=
  Host.reduce IntOp.andi (ta_v11 idx) (constantI S_ 1 1#1) reducesTo_S8x512x1x1_S8x512x1_d3 h_S_

def ta_v13 (x : FVec F S8x512x32000 .f32) (idx : IVec S8x512x1 32) : FVec F S8x512x1 .f32 :=
  Host.gather gather_S8x512x32000_S8x512x1x1_S8x512x1_n_2_01_01_2_3_111 x (ta_v5 idx)

def ta_v14 : FVec F S8x512x1 .f32 :=
  broadcastInDim S8x512x1 ![] bcast_S_S8x512x1 (constant S_ .f32 0x7FC00000#32)

def ta_v15 (x : FVec F S8x512x32000 .f32) (idx : IVec S8x512x1 32) : FVec F S8x512x1 .f32 :=
  select (ta_v12 idx) (ta_v13 x idx) (ta_v14 (F := F))

def val_v9 (W : FVec F S32000x2048 .f32) (X : FVec F S8x512x2048 .f32) (tgt : IVec S8x512 32)
    (bias : FVec F S32000 .f32) : FVec F S8x512x1 .f32 :=
  ta_v15 (val_v4 W X bias) (val_v8 tgt)

def val_v10 (W : FVec F S32000x2048 .f32) (X : FVec F S8x512x2048 .f32) (tgt : IVec S8x512 32)
    (bias : FVec F S32000 .f32) : FVec F S8x512 .f32 :=
  shapeCast S8x512 (val_v9 W X tgt bias) shapeCasts_S8x512x1_S8x512

def val_v11 (tgt : IVec S8x512 32) : FVec F S8x512 .f32 :=
  uitofp .f32 (val_v6 tgt)

/-- The masked per-token log-probabilities as the reference computes them. -/
def refPtl (W : FVec F S32000x2048 .f32) (X : FVec F S8x512x2048 .f32) (tgt : IVec S8x512 32)
    (bias : FVec F S32000 .f32) : FVec F S8x512 .f32 :=
  mulf (val_v10 W X tgt bias) (val_v11 (F := F) tgt)

/-- The reference's mask: the target differs from the ignore value. -/
def refMask (tgt : IVec S8x512 32) : IVec S8x512 1 :=
  val_v6 tgt

end Cert.ReferenceIdeal.Hand
-- ==== Proof.RefRun.lean ====
import proofs.«419790_j22101901705594_3_alg».proof.Proof.Gen.ReferenceIdeal
import Idealize.ShloMosaic.Lib.StableHlo.Run
import proofs.«419790_j22101901705594_3_alg».proof.Proof.LibTypedOps
import proofs.«419790_j22101901705594_3_alg».proof.Proof.RefStages
import proofs.«419790_j22101901705594_3_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations as printed, in three stretches. -/
abbrev opsTA : List (HloOp τ sig (Elt F)) :=
  [ StableHlo.binary main_arg1 main_arg0 main_v0 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    StableHlo.unary main_arg3 main_v1 (broadcastInDim S1x1x32000 ![2] bcast_S32000_S1x1x32000_2 : (⟨S32000, .f32⟩ : BufTy).Contents (Elt F) → (⟨S1x1x32000, .f32⟩ : BufTy).Contents (Elt F)),
    StableHlo.unary main_v1 main_v2 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    StableHlo.binary main_v0 main_v2 main_v3 (addf : (⟨S8x512x32000, .f32⟩ : BufTy).Contents (Elt F) → (⟨S8x512x32000, .f32⟩ : BufTy).Contents (Elt F) → (⟨S8x512x32000, .f32⟩ : BufTy).Contents (Elt F)),
    StableHlo.TRef.nullary main_call0.cst (constant S_ .f32 0xFF800000#32),
    StableHlo.TRef.binary (.of main_v3 : StableHlo.TRef sig ⟨S8x512x32000, .f32⟩) main_call0.cst main_call0.v0 (fun x v => Host.reduce FloatOps.maximumf x v reducesTo_S8x512x32000_S8x512_d2 h_S_),
    StableHlo.TRef.nullary main_call0.cst_0 (constant S_ .f32 0xFF800000#32),
    StableHlo.TRef.unary main_call0.cst_0 main_call0.v1 (broadcastInDim S8x512 ![] bcast_S_S8x512),
    StableHlo.TRef.binary main_call0.v1 main_call0.v0 main_call0.v2 maximumf,
    StableHlo.TRef.unary main_call0.v2 main_call0.v3 (broadcastInDim S8x512x1 ![0, 1] bcast_S8x512_S8x512x1_0_1),
    StableHlo.TRef.unary main_call0.v3 main_call0.v4 (broadcastInDim S8x512x32000 ![0, 1, 2] bcast_S8x512x1_S8x512x32000_0_1_2),
    StableHlo.TRef.binary (.of main_v3 : StableHlo.TRef sig ⟨S8x512x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S8x512x32000_S8x512_d2 h_S_),
    StableHlo.TRef.unary main_call0.v7 main_call0.v8 (broadcastInDim S8x512x1 ![0, 1] bcast_S8x512_S8x512x1_0_1),
    StableHlo.TRef.unary main_call0.v8 main_call0.v9 Host.log,
    StableHlo.TRef.unary main_call0.v9 main_call0.v10 (broadcastInDim S8x512x32000 ![0, 1, 2] bcast_S8x512x1_S8x512x32000_0_1_2),
    StableHlo.TRef.binary main_call0.v5 main_call0.v10 main_call0.v11 subf,
    StableHlo.nullary main_c (constantI S_ 32 4294967196#32),
    StableHlo.unary main_c main_v5 (broadcastInDim S8x512 ![] bcast_S_S8x512 : (⟨S_, .i32⟩ : BufTy).Contents (Elt F) → (⟨S8x512, .i32⟩ : BufTy).Contents (Elt F)),
    StableHlo.binary main_arg2 main_v5 main_v6 (cmpi .ne : (⟨S8x512, .i32⟩ : BufTy).Contents (Elt F) → (⟨S8x512, .i32⟩ : BufTy).Contents (Elt F) → (⟨S8x512, .i1⟩ : BufTy).Contents (Elt F)),
    StableHlo.nullary main_c_0 (constantI S_ 32 0#32),
    StableHlo.TRef.unary (.of main_c_0 : StableHlo.TRef sig ⟨S_, .i32⟩) main_call1.v0 id,
    StableHlo.TRef.unary main_call1.v0 main_call1.v1 (broadcastInDim S8x512 ![] bcast_S_S8x512),
    StableHlo.TRef.ternary (.of main_v6 : StableHlo.TRef sig ⟨S8x512, .i1⟩) (.of main_arg2 : StableHlo.TRef sig ⟨S8x512, .i32⟩) main_call1.v1 main_call1.v2 select,
    StableHlo.unary main_v7 main_v8 (broadcastInDim S8x512x1 ![0, 1] bcast_S8x512_S8x512x1_0_1 : (⟨S8x512, .i32⟩ : BufTy).Contents (Elt F) → (⟨S8x512x1, .i32⟩ : BufTy).Contents (Elt F)),
    StableHlo.TRef.nullary main_call2.c (constantI S_ 32 0#32),
    StableHlo.TRef.unary main_call2.c main_call2.v0 (broadcastInDim S8x512x1 ![] bcast_S_S8x512x1),
    StableHlo.TRef.binary (.of main_v8 : StableHlo.TRef sig ⟨S8x512x1, .i32⟩) main_call2.v0 main_call2.v1 (cmpi .slt),
    StableHlo.TRef.nullary main_call2.c_0 (constantI S_ 32 32000#32),
    StableHlo.TRef.unary main_call2.c_0 main_call2.v2 (broadcastInDim S8x512x1 ![] bcast_S_S8x512x1),
    StableHlo.TRef.binary (.of main_v8 : StableHlo.TRef sig ⟨S8x512x1, .i32⟩) main_call2.v2 main_call2.v3 addi,
    StableHlo.TRef.ternary main_call2.v1 main_call2.v3 (.of main_v8 : StableHlo.TRef sig ⟨S8x512x1, .i32⟩) main_call2.v4 select,
    StableHlo.TRef.reshape main_call2.v4 main_call2.v5 rfl shapeCasts_S8x512x1_S8x512x1x1,
    StableHlo.TRef.nullary main_call2.c_1 (constantI S1 32 31999#32),
    StableHlo.TRef.nullary main_call2.c_2 (constantI S_ 32 0#32),
    StableHlo.TRef.unary main_call2.c_2 main_call2.v6 (broadcastInDim S8x512x1x1 ![] bcast_S_S8x512x1x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S8x512x1x1 ![0, 1, 2, 3] bcast_S1x1x1x1_S8x512x1x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8x512x1x1_S8x512x1_d3 h_S_),
    StableHlo.TRef.binary (.of main_v4 : StableHlo.TRef sig ⟨S8x512x32000, .f32⟩) main_call2.v5 main_call2.v13 (fun x i => Host.gather gather_S8x512x32000_S8x512x1x1_S8x512x1_n_2_01_01_2_3_111 x i),
    StableHlo.TRef.nullary main_call2.cst (constant S_ .f32 0x7FC00000#32),
    StableHlo.TRef.unary main_call2.cst main_call2.v14 (broadcastInDim S8x512x1 ![] bcast_S_S8x512x1),
    StableHlo.TRef.ternary main_call2.v12 main_call2.v13 main_call2.v14 main_call2.v15 select,
    StableHlo.reshape main_v9 main_v10 rfl shapeCasts_S8x512x1_S8x512,
    StableHlo.unary main_v6 main_v11 (uitofp .f32 : (⟨S8x512, .i1⟩ : BufTy).Contents (Elt F) → (⟨S8x512, .f32⟩ : BufTy).Contents (Elt F)),
    StableHlo.binary main_v10 main_v11 main_v12 (mulf : (⟨S8x512, .f32⟩ : BufTy).Contents (Elt F) → (⟨S8x512, .f32⟩ : BufTy).Contents (Elt F) → (⟨S8x512, .f32⟩ : BufTy).Contents (Elt F)) ]

abbrev opsTB : List (HloOp τ sig (Elt F)) :=
  [ StableHlo.nullary main_cst (constant S_ .f32 0x00000000#32),
    StableHlo.binary main_v12 main_cst main_v13 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.unary main_v6 main_v14 ((extui 32 · natLt_1_32) : (⟨S8x512, .i1⟩ : BufTy).Contents (Elt F) → (⟨S8x512, .i32⟩ : BufTy).Contents (Elt F)),
    StableHlo.nullary main_c_1 (constantI S_ 32 0#32),
    StableHlo.binary main_v14 main_c_1 main_v15 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    StableHlo.unary main_v15 main_v16 (sitofp .f32 : (⟨S8, .i32⟩ : BufTy).Contents (Elt F) → (⟨S8, .f32⟩ : BufTy).Contents (Elt F)),
    StableHlo.binary main_v13 main_v16 main_v17 (Host.divf : (⟨S8, .f32⟩ : BufTy).Contents (Elt F) → (⟨S8, .f32⟩ : BufTy).Contents (Elt F) → (⟨S8, .f32⟩ : BufTy).Contents (Elt F)),
    StableHlo.unary main_v17 main_v18 ((extractStridedSlice S4 ![0] · slices_S8_S4_0) : (⟨S8, .f32⟩ : BufTy).Contents (Elt F) → (⟨S4, .f32⟩ : BufTy).Contents (Elt F)),
    StableHlo.unary main_v17 main_v19 ((extractStridedSlice S4 ![4] · slices_S8_S4_4) : (⟨S8, .f32⟩ : BufTy).Contents (Elt F) → (⟨S4, .f32⟩ : BufTy).Contents (Elt F)),
    StableHlo.unary main_v12 main_v20 ((extractStridedSlice S4x512 ![0, 0] · slices_S8x512_S4x512_0_0) : (⟨S8x512, .f32⟩ : BufTy).Contents (Elt F) → (⟨S4x512, .f32⟩ : BufTy).Contents (Elt F)),
    StableHlo.nullary main_cst_2 (constant S_ .f32 0x00000000#32),
    StableHlo.binary main_v20 main_cst_2 main_v21 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.unary main_v21 main_v22 (Host.negf : (⟨S_, .f32⟩ : BufTy).Contents (Elt F) → (⟨S_, .f32⟩ : BufTy).Contents (Elt F)),
    StableHlo.unary main_v6 main_v23 ((extractStridedSlice S4x512 ![0, 0] · slices_S8x512_S4x512_0_0) : (⟨S8x512, .i1⟩ : BufTy).Contents (Elt F) → (⟨S4x512, .i1⟩ : BufTy).Contents (Elt F)),
    StableHlo.unary main_v23 main_v24 ((extui 32 · natLt_1_32) : (⟨S4x512, .i1⟩ : BufTy).Contents (Elt F) → (⟨S4x512, .i32⟩ : BufTy).Contents (Elt F)),
    StableHlo.nullary main_c_3 (constantI S_ 32 0#32),
    StableHlo.binary main_v24 main_c_3 main_v25 ((fun x v => Host.reduce IntOp.addi x v reducesTo_S4x512_S_d0_1 h_S_) : (⟨S4x512, .i32⟩ : BufTy).Contents (Elt F) → (⟨S_, .i32⟩ : BufTy).Contents (Elt F) → (⟨S_, .i32⟩ : BufTy).Contents (Elt F)),
    StableHlo.unary main_v25 main_v26 (sitofp .f32 : (⟨S_, .i32⟩ : BufTy).Contents (Elt F) → (⟨S_, .f32⟩ : BufTy).Contents (Elt F)),
    StableHlo.binary main_v22 main_v26 main_v27 (Host.divf : (⟨S_, .f32⟩ : BufTy).Contents (Elt F) → (⟨S_, .f32⟩ : BufTy).Contents (Elt F) → (⟨S_, .f32⟩ : BufTy).Contents (Elt F)),
    StableHlo.binary main_v18 main_v19 main_v28 (subf : (⟨S4, .f32⟩ : BufTy).Contents (Elt F) → (⟨S4, .f32⟩ : BufTy).Contents (Elt F) → (⟨S4, .f32⟩ : BufTy).Contents (Elt F)),
    StableHlo.nullary main_cst_4 (constant S_ .f32 0x3DCCCCCD#32),
    StableHlo.unary main_cst_4 main_v29 (broadcastInDim S4 ![] bcast_S_S4 : (⟨S_, .f32⟩ : BufTy).Contents (Elt F) → (⟨S4, .f32⟩ : BufTy).Contents (Elt F)),
    StableHlo.binary main_v29 main_v28 main_v30 (mulf : (⟨S4, .f32⟩ : BufTy).Contents (Elt F) → (⟨S4, .f32⟩ : BufTy).Contents (Elt F) → (⟨S4, .f32⟩ : BufTy).Contents (Elt F)),
    StableHlo.nullary main_cst_5 (constant S_ .f32 0x3F000000#32),
    StableHlo.unary main_cst_5 main_v31 (broadcastInDim S4 ![] bcast_S_S4 : (⟨S_, .f32⟩ : BufTy).Contents (Elt F) → (⟨S4, .f32⟩ : BufTy).Contents (Elt F)),
    StableHlo.binary main_v30 main_v31 main_v32 (subf : (⟨S4, .f32⟩ : BufTy).Contents (Elt F) → (⟨S4, .f32⟩ : BufTy).Contents (Elt F) → (⟨S4, .f32⟩ : BufTy).Contents (Elt F)),
    StableHlo.TRef.unary (.of main_v32 : StableHlo.TRef sig ⟨S4, .f32⟩) main_call3.v0 Host.negf,
    StableHlo.TRef.nullary main_call3.call0.cst (constant S_ .f32 0x00000000#32),
    StableHlo.TRef.unary main_call3.call0.cst main_call3.call0.v0 (broadcastInDim S4 ![] bcast_S_S4),
    StableHlo.TRef.binary main_call3.v0 main_call3.call0.v0 main_call3.call0.v1 maximumf,
    StableHlo.TRef.unary main_call3.call0.cst main_call3.call0.v2 (broadcastInDim S4 ![] bcast_S_S4),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S4 ![] bcast_S_S4),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf ]

abbrev opsTC : List (HloOp τ sig (Elt F)) :=
  [ StableHlo.unary main_v33 main_v34 (Host.negf : (⟨S4, .f32⟩ : BufTy).Contents (Elt F) → (⟨S4, .f32⟩ : BufTy).Contents (Elt F)),
    StableHlo.nullary main_cst_6 (constant S_ .f32 0x3F800000#32),
    StableHlo.unary main_cst_6 main_v35 (broadcastInDim S4 ![] bcast_S_S4 : (⟨S_, .f32⟩ : BufTy).Contents (Elt F) → (⟨S4, .f32⟩ : BufTy).Contents (Elt F)),
    StableHlo.binary main_v34 main_v35 main_v36 (mulf : (⟨S4, .f32⟩ : BufTy).Contents (Elt F) → (⟨S4, .f32⟩ : BufTy).Contents (Elt F) → (⟨S4, .f32⟩ : BufTy).Contents (Elt F)),
    StableHlo.unary main_v32 main_v37 (Host.negf : (⟨S4, .f32⟩ : BufTy).Contents (Elt F) → (⟨S4, .f32⟩ : BufTy).Contents (Elt F)),
    StableHlo.TRef.unary (.of main_v37 : StableHlo.TRef sig ⟨S4, .f32⟩) main_call4.v0 Host.negf,
    StableHlo.TRef.nullary main_call4.call0.cst (constant S_ .f32 0x00000000#32),
    StableHlo.TRef.unary main_call4.call0.cst main_call4.call0.v0 (broadcastInDim S4 ![] bcast_S_S4),
    StableHlo.TRef.binary main_call4.v0 main_call4.call0.v0 main_call4.call0.v1 maximumf,
    StableHlo.TRef.unary main_call4.call0.cst main_call4.call0.v2 (broadcastInDim S4 ![] bcast_S_S4),
    StableHlo.TRef.binary main_call4.v0 main_call4.call0.v2 main_call4.call0.v3 subf,
    StableHlo.TRef.binary main_call4.call0.v3 main_call4.call0.v3 main_call4.call0.v4 (cmpf .une),
    StableHlo.TRef.unary main_call4.call0.cst main_call4.call0.v5 (broadcastInDim S4 ![] bcast_S_S4),
    StableHlo.TRef.binary main_call4.v0 main_call4.call0.v5 main_call4.call0.v6 addf,
    StableHlo.TRef.unary main_call4.call0.v3 main_call4.call0.v7 Host.absf,
    StableHlo.TRef.unary main_call4.call0.v7 main_call4.call0.v8 Host.negf,
    StableHlo.TRef.unary main_call4.call0.v8 main_call4.call0.v9 Host.exp,
    StableHlo.TRef.unary main_call4.call0.v9 main_call4.call0.v10 Host.log1p,
    StableHlo.TRef.binary main_call4.call0.v1 main_call4.call0.v10 main_call4.call0.v11 addf,
    StableHlo.TRef.ternary main_call4.call0.v4 main_call4.call0.v6 main_call4.call0.v11 main_call4.call0.v12 select,
    StableHlo.TRef.unary main_call4.call0.v12 main_call4.v2 Host.negf,
    StableHlo.nullary main_cst_7 (constant S_ .f32 0x00000000#32),
    StableHlo.unary main_cst_7 main_v39 (broadcastInDim S4 ![] bcast_S_S4 : (⟨S_, .f32⟩ : BufTy).Contents (Elt F) → (⟨S4, .f32⟩ : BufTy).Contents (Elt F)),
    StableHlo.binary main_v38 main_v39 main_v40 (mulf : (⟨S4, .f32⟩ : BufTy).Contents (Elt F) → (⟨S4, .f32⟩ : BufTy).Contents (Elt F) → (⟨S4, .f32⟩ : BufTy).Contents (Elt F)),
    StableHlo.binary main_v36 main_v40 main_v41 (subf : (⟨S4, .f32⟩ : BufTy).Contents (Elt F) → (⟨S4, .f32⟩ : BufTy).Contents (Elt F) → (⟨S4, .f32⟩ : BufTy).Contents (Elt F)),
    StableHlo.nullary main_cst_8 (constant S_ .f32 0x00000000#32),
    StableHlo.binary main_v41 main_cst_8 main_v42 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_9 (constant S_ .f32 0x40800000#32),
    StableHlo.binary main_v42 main_cst_9 main_v43 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x3F800000#32),
    StableHlo.binary main_cst_10 main_v27 main_v44 (mulf : (⟨S_, .f32⟩ : BufTy).Contents (Elt F) → (⟨S_, .f32⟩ : BufTy).Contents (Elt F) → (⟨S_, .f32⟩ : BufTy).Contents (Elt F)),
    StableHlo.binary main_v44 main_v43 main_v45 (addf : (⟨S_, .f32⟩ : BufTy).Contents (Elt F) → (⟨S_, .f32⟩ : BufTy).Contents (Elt F) → (⟨S_, .f32⟩ : BufTy).Contents (Elt F)) ]

/-- The same operations over the bare buffers. -/
abbrev opsA : List (HloOp τ sig (Elt F)) :=
  [ StableHlo.binary main_arg1 main_arg0 main_v0 ((fun l r => Host.dotGeneral dot_S8x512x2048_S32000x2048_S8x512x32000_2_1_01_0_n_n none l r) : (⟨S8x512x2048, .f32⟩ : BufTy).Contents (Elt F) → (⟨S32000x2048, .f32⟩ : BufTy).Contents (Elt F) → (⟨S8x512x32000, .f32⟩ : BufTy).Contents (Elt F)),
    StableHlo.unary main_arg3 main_v1 (broadcastInDim S1x1x32000 ![2] bcast_S32000_S1x1x32000_2 : (⟨S32000, .f32⟩ : BufTy).Contents (Elt F) → (⟨S1x1x32000, .f32⟩ : BufTy).Contents (Elt F)),
    StableHlo.unary main_v1 main_v2 (broadcastInDim S8x512x32000 ![0, 1, 2] bcast_S1x1x32000_S8x512x32000_0_1_2 : (⟨S1x1x32000, .f32⟩ : BufTy).Contents (Elt F) → (⟨S8x512x32000, .f32⟩ : BufTy).Contents (Elt F)),
    StableHlo.binary main_v0 main_v2 main_v3 (addf : (⟨S8x512x32000, .f32⟩ : BufTy).Contents (Elt F) → (⟨S8x512x32000, .f32⟩ : BufTy).Contents (Elt F) → (⟨S8x512x32000, .f32⟩ : BufTy).Contents (Elt F)),
    StableHlo.nullary main_call0_cst (constant S_ .f32 0xFF800000#32),
    StableHlo.binary main_v3 main_call0_cst main_call0_v0 ((fun x v => Host.reduce FloatOps.maximumf x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    StableHlo.nullary main_call0_cst_0 (constant S_ .f32 0xFF800000#32),
    StableHlo.unary main_call0_cst_0 main_call0_v1 (broadcastInDim S8x512 ![] bcast_S_S8x512 : (⟨S_, .f32⟩ : BufTy).Contents (Elt F) → (⟨S8x512, .f32⟩ : BufTy).Contents (Elt F)),
    StableHlo.binary main_call0_v1 main_call0_v0 main_call0_v2 (maximumf : (⟨S8x512, .f32⟩ : BufTy).Contents (Elt F) → (⟨S8x512, .f32⟩ : BufTy).Contents (Elt F) → (⟨S8x512, .f32⟩ : BufTy).Contents (Elt F)),
    StableHlo.unary main_call0_v2 main_call0_v3 (broadcastInDim S8x512x1 ![0, 1] bcast_S8x512_S8x512x1_0_1 : (⟨S8x512, .f32⟩ : BufTy).Contents (Elt F) → (⟨S8x512x1, .f32⟩ : BufTy).Contents (Elt F)),
    StableHlo.unary main_call0_v3 main_call0_v4 (broadcastInDim S8x512x32000 ![0, 1, 2] bcast_S8x512x1_S8x512x32000_0_1_2 : (⟨S8x512x1, .f32⟩ : BufTy).Contents (Elt F) → (⟨S8x512x32000, .f32⟩ : BufTy).Contents (Elt F)),
    StableHlo.binary main_v3 main_call0_v4 main_call0_v5 (subf : (⟨S8x512x32000, .f32⟩ : BufTy).Contents (Elt F) → (⟨S8x512x32000, .f32⟩ : BufTy).Contents (Elt F) → (⟨S8x512x32000, .f32⟩ : BufTy).Contents (Elt F)),
    StableHlo.unary main_call0_v5 main_call0_v6 (Host.exp : (⟨S8x512x32000, .f32⟩ : BufTy).Contents (Elt F) → (⟨S8x512x32000, .f32⟩ : BufTy).Contents (Elt F)),
    StableHlo.nullary main_call0_cst_1 (constant S_ .f32 0x00000000#32),
    StableHlo.binary main_call0_v6 main_call0_cst_1 main_call0_v7 ((fun x v => Host.reduceAdd x v reducesTo_S8x512x32000_S8x512_d2 h_S_) : (⟨S8x512x32000, .f32⟩ : BufTy).Contents (Elt F) → (⟨S_, .f32⟩ : BufTy).Contents (Elt F) → (⟨S8x512, .f32⟩ : BufTy).Contents (Elt F)),
    StableHlo.unary main_call0_v7 main_call0_v8 (broadcastInDim S8x512x1 ![0, 1] bcast_S8x512_S8x512x1_0_1 : (⟨S8x512, .f32⟩ : BufTy).Contents (Elt F) → (⟨S8x512x1, .f32⟩ : BufTy).Contents (Elt F)),
    StableHlo.unary main_call0_v8 main_call0_v9 (Host.log : (⟨S8x512x1, .f32⟩ : BufTy).Contents (Elt F) → (⟨S8x512x1, .f32⟩ : BufTy).Contents (Elt F)),
    StableHlo.unary main_call0_v9 main_call0_v10 (broadcastInDim S8x512x32000 ![0, 1, 2] bcast_S8x512x1_S8x512x32000_0_1_2 : (⟨S8x512x1, .f32⟩ : BufTy).Contents (Elt F) → (⟨S8x512x32000, .f32⟩ : BufTy).Contents (Elt F)),
    StableHlo.binary main_call0_v5 main_call0_v10 main_v4 (subf : (⟨S8x512x32000, .f32⟩ : BufTy).Contents (Elt F) → (⟨S8x512x32000, .f32⟩ : BufTy).Contents (Elt F) → (⟨S8x512x32000, .f32⟩ : BufTy).Contents (Elt F)),
    StableHlo.nullary main_c (constantI S_ 32 4294967196#32),
    StableHlo.unary main_c main_v5 (broadcastInDim S8x512 ![] bcast_S_S8x512 : (⟨S_, .i32⟩ : BufTy).Contents (Elt F) → (⟨S8x512, .i32⟩ : BufTy).Contents (Elt F)),
    StableHlo.binary main_arg2 main_v5 main_v6 (cmpi .ne : (⟨S8x512, .i32⟩ : BufTy).Contents (Elt F) → (⟨S8x512, .i32⟩ : BufTy).Contents (Elt F) → (⟨S8x512, .i1⟩ : BufTy).Contents (Elt F)),
    StableHlo.nullary main_c_0 (constantI S_ 32 0#32),
    StableHlo.unary main_c_0 main_call1_v0 (id : (⟨S_, .i32⟩ : BufTy).Contents (Elt F) → (⟨S_, .i32⟩ : BufTy).Contents (Elt F)),
    StableHlo.unary main_call1_v0 main_call1_v1 (broadcastInDim S8x512 ![] bcast_S_S8x512 : (⟨S_, .i32⟩ : BufTy).Contents (Elt F) → (⟨S8x512, .i32⟩ : BufTy).Contents (Elt F)),
    StableHlo.ternary main_v6 main_arg2 main_call1_v1 main_v7 (select : (⟨S8x512, .i1⟩ : BufTy).Contents (Elt F) → (⟨S8x512, .i32⟩ : BufTy).Contents (Elt F) → (⟨S8x512, .i32⟩ : BufTy).Contents (Elt F) → (⟨S8x512, .i32⟩ : BufTy).Contents (Elt F)),
    StableHlo.unary main_v7 main_v8 (broadcastInDim S8x512x1 ![0, 1] bcast_S8x512_S8x512x1_0_1 : (⟨S8x512, .i32⟩ : BufTy).Contents (Elt F) → (⟨S8x512x1, .i32⟩ : BufTy).Contents (Elt F)),
    StableHlo.nullary main_call2_c (constantI S_ 32 0#32),
    StableHlo.unary main_call2_c main_call2_v0 (broadcastInDim S8x512x1 ![] bcast_S_S8x512x1 : (⟨S_, .i32⟩ : BufTy).Contents (Elt F) → (⟨S8x512x1, .i32⟩ : BufTy).Contents (Elt F)),
    StableHlo.binary main_v8 main_call2_v0 main_call2_v1 (cmpi .slt : (⟨S8x512x1, .i32⟩ : BufTy).Contents (Elt F) → (⟨S8x512x1, .i32⟩ : BufTy).Contents (Elt F) → (⟨S8x512x1, .i1⟩ : BufTy).Contents (Elt F)),
    StableHlo.nullary main_call2_c_0 (constantI S_ 32 32000#32),
    StableHlo.unary main_call2_c_0 main_call2_v2 (broadcastInDim S8x512x1 ![] bcast_S_S8x512x1 : (⟨S_, .i32⟩ : BufTy).Contents (Elt F) → (⟨S8x512x1, .i32⟩ : BufTy).Contents (Elt F)),
    StableHlo.binary main_v8 main_call2_v2 main_call2_v3 (addi : (⟨S8x512x1, .i32⟩ : BufTy).Contents (Elt F) → (⟨S8x512x1, .i32⟩ : BufTy).Contents (Elt F) → (⟨S8x512x1, .i32⟩ : BufTy).Contents (Elt F)),
    StableHlo.ternary main_call2_v1 main_call2_v3 main_v8 main_call2_v4 (select : (⟨S8x512x1, .i1⟩ : BufTy).Contents (Elt F) → (⟨S8x512x1, .i32⟩ : BufTy).Contents (Elt F) → (⟨S8x512x1, .i32⟩ : BufTy).Contents (Elt F) → (⟨S8x512x1, .i32⟩ : BufTy).Contents (Elt F)),
    StableHlo.reshape main_call2_v4 main_call2_v5 rfl shapeCasts_S8x512x1_S8x512x1x1,
    StableHlo.nullary main_call2_c_1 (constantI S1 32 31999#32),
    StableHlo.nullary main_call2_c_2 (constantI S_ 32 0#32),
    StableHlo.unary main_call2_c_2 main_call2_v6 (broadcastInDim S8x512x1x1 ![] bcast_S_S8x512x1x1 : (⟨S_, .i32⟩ : BufTy).Contents (Elt F) → (⟨S8x512x1x1, .i32⟩ : BufTy).Contents (Elt F)),
    StableHlo.binary main_call2_v5 main_call2_v6 main_call2_v7 (cmpi .sge : (⟨S8x512x1x1, .i32⟩ : BufTy).Contents (Elt F) → (⟨S8x512x1x1, .i32⟩ : BufTy).Contents (Elt F) → (⟨S8x512x1x1, .i1⟩ : BufTy).Contents (Elt F)),
    StableHlo.unary main_call2_c_1 main_call2_v8 (broadcastInDim S1x1x1x1 ![3] bcast_S1_S1x1x1x1_3 : (⟨S1, .i32⟩ : BufTy).Contents (Elt F) → (⟨S1x1x1x1, .i32⟩ : BufTy).Contents (Elt F)),
    StableHlo.unary main_call2_v8 main_call2_v9 (broadcastInDim S8x512x1x1 ![0, 1, 2, 3] bcast_S1x1x1x1_S8x512x1x1_0_1_2_3 : (⟨S1x1x1x1, .i32⟩ : BufTy).Contents (Elt F) → (⟨S8x512x1x1, .i32⟩ : BufTy).Contents (Elt F)),
    StableHlo.binary main_call2_v5 main_call2_v9 main_call2_v10 (cmpi .sle : (⟨S8x512x1x1, .i32⟩ : BufTy).Contents (Elt F) → (⟨S8x512x1x1, .i32⟩ : BufTy).Contents (Elt F) → (⟨S8x512x1x1, .i1⟩ : BufTy).Contents (Elt F)),
    StableHlo.binary main_call2_v7 main_call2_v10 main_call2_v11 (andi : (⟨S8x512x1x1, .i1⟩ : BufTy).Contents (Elt F) → (⟨S8x512x1x1, .i1⟩ : BufTy).Contents (Elt F) → (⟨S8x512x1x1, .i1⟩ : BufTy).Contents (Elt F)),
    StableHlo.nullary main_call2_c_3 (constantI S_ 1 1#1),
    StableHlo.binary main_call2_v11 main_call2_c_3 main_call2_v12 ((fun x v => Host.reduce IntOp.andi x v reducesTo_S8x512x1x1_S8x512x1_d3 h_S_) : (⟨S8x512x1x1, .i1⟩ : BufTy).Contents (Elt F) → (⟨S_, .i1⟩ : BufTy).Contents (Elt F) → (⟨S8x512x1, .i1⟩ : BufTy).Contents (Elt F)),
    StableHlo.binary main_v4 main_call2_v5 main_call2_v13 ((fun x i => Host.gather gather_S8x512x32000_S8x512x1x1_S8x512x1_n_2_01_01_2_3_111 x i) : (⟨S8x512x32000, .f32⟩ : BufTy).Contents (Elt F) → (⟨S8x512x1x1, .i32⟩ : BufTy).Contents (Elt F) → (⟨S8x512x1, .f32⟩ : BufTy).Contents (Elt F)),
    StableHlo.nullary main_call2_cst (constant S_ .f32 0x7FC00000#32),
    StableHlo.unary main_call2_cst main_call2_v14 (broadcastInDim S8x512x1 ![] bcast_S_S8x512x1 : (⟨S_, .f32⟩ : BufTy).Contents (Elt F) → (⟨S8x512x1, .f32⟩ : BufTy).Contents (Elt F)),
    StableHlo.ternary main_call2_v12 main_call2_v13 main_call2_v14 main_v9 (select : (⟨S8x512x1, .i1⟩ : BufTy).Contents (Elt F) → (⟨S8x512x1, .f32⟩ : BufTy).Contents (Elt F) → (⟨S8x512x1, .f32⟩ : BufTy).Contents (Elt F) → (⟨S8x512x1, .f32⟩ : BufTy).Contents (Elt F)),
    StableHlo.reshape main_v9 main_v10 rfl shapeCasts_S8x512x1_S8x512,
    StableHlo.unary main_v6 main_v11 (uitofp .f32 : (⟨S8x512, .i1⟩ : BufTy).Contents (Elt F) → (⟨S8x512, .f32⟩ : BufTy).Contents (Elt F)),
    StableHlo.binary main_v10 main_v11 main_v12 (mulf : (⟨S8x512, .f32⟩ : BufTy).Contents (Elt F) → (⟨S8x512, .f32⟩ : BufTy).Contents (Elt F) → (⟨S8x512, .f32⟩ : BufTy).Contents (Elt F)) ]

abbrev opsB : List (HloOp τ sig (Elt F)) :=
  [ StableHlo.nullary main_cst (constant S_ .f32 0x00000000#32),
    StableHlo.binary main_v12 main_cst main_v13 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.unary main_v6 main_v14 ((extui 32 · natLt_1_32) : (⟨S8x512, .i1⟩ : BufTy).Contents (Elt F) → (⟨S8x512, .i32⟩ : BufTy).Contents (Elt F)),
    StableHlo.nullary main_c_1 (constantI S_ 32 0#32),
    StableHlo.binary main_v14 main_c_1 main_v15 ((fun x v => Host.reduce IntOp.addi x v reducesTo_S8x512_S8_d1 h_S_) : (⟨S8x512, .i32⟩ : BufTy).Contents (Elt F) → (⟨S_, .i32⟩ : BufTy).Contents (Elt F) → (⟨S8, .i32⟩ : BufTy).Contents (Elt F)),
    StableHlo.unary main_v15 main_v16 (sitofp .f32 : (⟨S8, .i32⟩ : BufTy).Contents (Elt F) → (⟨S8, .f32⟩ : BufTy).Contents (Elt F)),
    StableHlo.binary main_v13 main_v16 main_v17 (Host.divf : (⟨S8, .f32⟩ : BufTy).Contents (Elt F) → (⟨S8, .f32⟩ : BufTy).Contents (Elt F) → (⟨S8, .f32⟩ : BufTy).Contents (Elt F)),
    StableHlo.unary main_v17 main_v18 ((extractStridedSlice S4 ![0] · slices_S8_S4_0) : (⟨S8, .f32⟩ : BufTy).Contents (Elt F) → (⟨S4, .f32⟩ : BufTy).Contents (Elt F)),
    StableHlo.unary main_v17 main_v19 ((extractStridedSlice S4 ![4] · slices_S8_S4_4) : (⟨S8, .f32⟩ : BufTy).Contents (Elt F) → (⟨S4, .f32⟩ : BufTy).Contents (Elt F)),
    StableHlo.unary main_v12 main_v20 ((extractStridedSlice S4x512 ![0, 0] · slices_S8x512_S4x512_0_0) : (⟨S8x512, .f32⟩ : BufTy).Contents (Elt F) → (⟨S4x512, .f32⟩ : BufTy).Contents (Elt F)),
    StableHlo.nullary main_cst_2 (constant S_ .f32 0x00000000#32),
    StableHlo.binary main_v20 main_cst_2 main_v21 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.unary main_v21 main_v22 (Host.negf : (⟨S_, .f32⟩ : BufTy).Contents (Elt F) → (⟨S_, .f32⟩ : BufTy).Contents (Elt F)),
    StableHlo.unary main_v6 main_v23 ((extractStridedSlice S4x512 ![0, 0] · slices_S8x512_S4x512_0_0) : (⟨S8x512, .i1⟩ : BufTy).Contents (Elt F) → (⟨S4x512, .i1⟩ : BufTy).Contents (Elt F)),
    StableHlo.unary main_v23 main_v24 ((extui 32 · natLt_1_32) : (⟨S4x512, .i1⟩ : BufTy).Contents (Elt F) → (⟨S4x512, .i32⟩ : BufTy).Contents (Elt F)),
    StableHlo.nullary main_c_3 (constantI S_ 32 0#32),
    StableHlo.binary main_v24 main_c_3 main_v25 ((fun x v => Host.reduce IntOp.addi x v reducesTo_S4x512_S_d0_1 h_S_) : (⟨S4x512, .i32⟩ : BufTy).Contents (Elt F) → (⟨S_, .i32⟩ : BufTy).Contents (Elt F) → (⟨S_, .i32⟩ : BufTy).Contents (Elt F)),
    StableHlo.unary main_v25 main_v26 (sitofp .f32 : (⟨S_, .i32⟩ : BufTy).Contents (Elt F) → (⟨S_, .f32⟩ : BufTy).Contents (Elt F)),
    StableHlo.binary main_v22 main_v26 main_v27 (Host.divf : (⟨S_, .f32⟩ : BufTy).Contents (Elt F) → (⟨S_, .f32⟩ : BufTy).Contents (Elt F) → (⟨S_, .f32⟩ : BufTy).Contents (Elt F)),
    StableHlo.binary main_v18 main_v19 main_v28 (subf : (⟨S4, .f32⟩ : BufTy).Contents (Elt F) → (⟨S4, .f32⟩ : BufTy).Contents (Elt F) → (⟨S4, .f32⟩ : BufTy).Contents (Elt F)),
    StableHlo.nullary main_cst_4 (constant S_ .f32 0x3DCCCCCD#32),
    StableHlo.unary main_cst_4 main_v29 (broadcastInDim S4 ![] bcast_S_S4 : (⟨S_, .f32⟩ : BufTy).Contents (Elt F) → (⟨S4, .f32⟩ : BufTy).Contents (Elt F)),
    StableHlo.binary main_v29 main_v28 main_v30 (mulf : (⟨S4, .f32⟩ : BufTy).Contents (Elt F) → (⟨S4, .f32⟩ : BufTy).Contents (Elt F) → (⟨S4, .f32⟩ : BufTy).Contents (Elt F)),
    StableHlo.nullary main_cst_5 (constant S_ .f32 0x3F000000#32),
    StableHlo.unary main_cst_5 main_v31 (broadcastInDim S4 ![] bcast_S_S4 : (⟨S_, .f32⟩ : BufTy).Contents (Elt F) → (⟨S4, .f32⟩ : BufTy).Contents (Elt F)),
    StableHlo.binary main_v30 main_v31 main_v32 (subf : (⟨S4, .f32⟩ : BufTy).Contents (Elt F) → (⟨S4, .f32⟩ : BufTy).Contents (Elt F) → (⟨S4, .f32⟩ : BufTy).Contents (Elt F)),
    StableHlo.unary main_v32 main_call3_v0 (Host.negf : (⟨S4, .f32⟩ : BufTy).Contents (Elt F) → (⟨S4, .f32⟩ : BufTy).Contents (Elt F)),
    StableHlo.nullary main_call3_call0_cst (constant S_ .f32 0x00000000#32),
    StableHlo.unary main_call3_call0_cst main_call3_call0_v0 (broadcastInDim S4 ![] bcast_S_S4 : (⟨S_, .f32⟩ : BufTy).Contents (Elt F) → (⟨S4, .f32⟩ : BufTy).Contents (Elt F)),
    StableHlo.binary main_call3_v0 main_call3_call0_v0 main_call3_call0_v1 (maximumf : (⟨S4, .f32⟩ : BufTy).Contents (Elt F) → (⟨S4, .f32⟩ : BufTy).Contents (Elt F) → (⟨S4, .f32⟩ : BufTy).Contents (Elt F)),
    StableHlo.unary main_call3_call0_cst main_call3_call0_v2 (broadcastInDim S4 ![] bcast_S_S4 : (⟨S_, .f32⟩ : BufTy).Contents (Elt F) → (⟨S4, .f32⟩ : BufTy).Contents (Elt F)),
    StableHlo.binary main_call3_v0 main_call3_call0_v2 main_call3_call0_v3 (subf : (⟨S4, .f32⟩ : BufTy).Contents (Elt F) → (⟨S4, .f32⟩ : BufTy).Contents (Elt F) → (⟨S4, .f32⟩ : BufTy).Contents (Elt F)),
    StableHlo.binary main_call3_call0_v3 main_call3_call0_v3 main_call3_call0_v4 (cmpf .une : (⟨S4, .f32⟩ : BufTy).Contents (Elt F) → (⟨S4, .f32⟩ : BufTy).Contents (Elt F) → (⟨S4, .i1⟩ : BufTy).Contents (Elt F)),
    StableHlo.unary main_call3_call0_cst main_call3_call0_v5 (broadcastInDim S4 ![] bcast_S_S4 : (⟨S_, .f32⟩ : BufTy).Contents (Elt F) → (⟨S4, .f32⟩ : BufTy).Contents (Elt F)),
    StableHlo.binary main_call3_v0 main_call3_call0_v5 main_call3_call0_v6 (addf : (⟨S4, .f32⟩ : BufTy).Contents (Elt F) → (⟨S4, .f32⟩ : BufTy).Contents (Elt F) → (⟨S4, .f32⟩ : BufTy).Contents (Elt F)),
    StableHlo.unary main_call3_call0_v3 main_call3_call0_v7 (Host.absf : (⟨S4, .f32⟩ : BufTy).Contents (Elt F) → (⟨S4, .f32⟩ : BufTy).Contents (Elt F)),
    StableHlo.unary main_call3_call0_v7 main_call3_call0_v8 (Host.negf : (⟨S4, .f32⟩ : BufTy).Contents (Elt F) → (⟨S4, .f32⟩ : BufTy).Contents (Elt F)),
    StableHlo.unary main_call3_call0_v8 main_call3_call0_v9 (Host.exp : (⟨S4, .f32⟩ : BufTy).Contents (Elt F) → (⟨S4, .f32⟩ : BufTy).Contents (Elt F)),
    StableHlo.unary main_call3_call0_v9 main_call3_call0_v10 (Host.log1p : (⟨S4, .f32⟩ : BufTy).Contents (Elt F) → (⟨S4, .f32⟩ : BufTy).Contents (Elt F)),
    StableHlo.binary main_call3_call0_v1 main_call3_call0_v10 main_call3_call0_v11 (addf : (⟨S4, .f32⟩ : BufTy).Contents (Elt F) → (⟨S4, .f32⟩ : BufTy).Contents (Elt F) → (⟨S4, .f32⟩ : BufTy).Contents (Elt F)),
    StableHlo.ternary main_call3_call0_v4 main_call3_call0_v6 main_call3_call0_v11 main_call3_v1 (select : (⟨S4, .i1⟩ : BufTy).Contents (Elt F) → (⟨S4, .f32⟩ : BufTy).Contents (Elt F) → (⟨S4, .f32⟩ : BufTy).Contents (Elt F) → (⟨S4, .f32⟩ : BufTy).Contents (Elt F)),
    StableHlo.unary main_call3_v1 main_v33 (Host.negf : (⟨S4, .f32⟩ : BufTy).Contents (Elt F) → (⟨S4, .f32⟩ : BufTy).Contents (Elt F)) ]

abbrev opsC : List (HloOp τ sig (Elt F)) :=
  [ StableHlo.unary main_v33 main_v34 (Host.negf : (⟨S4, .f32⟩ : BufTy).Contents (Elt F) → (⟨S4, .f32⟩ : BufTy).Contents (Elt F)),
    StableHlo.nullary main_cst_6 (constant S_ .f32 0x3F800000#32),
    StableHlo.unary main_cst_6 main_v35 (broadcastInDim S4 ![] bcast_S_S4 : (⟨S_, .f32⟩ : BufTy).Contents (Elt F) → (⟨S4, .f32⟩ : BufTy).Contents (Elt F)),
    StableHlo.binary main_v34 main_v35 main_v36 (mulf : (⟨S4, .f32⟩ : BufTy).Contents (Elt F) → (⟨S4, .f32⟩ : BufTy).Contents (Elt F) → (⟨S4, .f32⟩ : BufTy).Contents (Elt F)),
    StableHlo.unary main_v32 main_v37 (Host.negf : (⟨S4, .f32⟩ : BufTy).Contents (Elt F) → (⟨S4, .f32⟩ : BufTy).Contents (Elt F)),
    StableHlo.unary main_v37 main_call4_v0 (Host.negf : (⟨S4, .f32⟩ : BufTy).Contents (Elt F) → (⟨S4, .f32⟩ : BufTy).Contents (Elt F)),
    StableHlo.nullary main_call4_call0_cst (constant S_ .f32 0x00000000#32),
    StableHlo.unary main_call4_call0_cst main_call4_call0_v0 (broadcastInDim S4 ![] bcast_S_S4 : (⟨S_, .f32⟩ : BufTy).Contents (Elt F) → (⟨S4, .f32⟩ : BufTy).Contents (Elt F)),
    StableHlo.binary main_call4_v0 main_call4_call0_v0 main_call4_call0_v1 (maximumf : (⟨S4, .f32⟩ : BufTy).Contents (Elt F) → (⟨S4, .f32⟩ : BufTy).Contents (Elt F) → (⟨S4, .f32⟩ : BufTy).Contents (Elt F)),
    StableHlo.unary main_call4_call0_cst main_call4_call0_v2 (broadcastInDim S4 ![] bcast_S_S4 : (⟨S_, .f32⟩ : BufTy).Contents (Elt F) → (⟨S4, .f32⟩ : BufTy).Contents (Elt F)),
    StableHlo.binary main_call4_v0 main_call4_call0_v2 main_call4_call0_v3 (subf : (⟨S4, .f32⟩ : BufTy).Contents (Elt F) → (⟨S4, .f32⟩ : BufTy).Contents (Elt F) → (⟨S4, .f32⟩ : BufTy).Contents (Elt F)),
    StableHlo.binary main_call4_call0_v3 main_call4_call0_v3 main_call4_call0_v4 (cmpf .une : (⟨S4, .f32⟩ : BufTy).Contents (Elt F) → (⟨S4, .f32⟩ : BufTy).Contents (Elt F) → (⟨S4, .i1⟩ : BufTy).Contents (Elt F)),
    StableHlo.unary main_call4_call0_cst main_call4_call0_v5 (broadcastInDim S4 ![] bcast_S_S4 : (⟨S_, .f32⟩ : BufTy).Contents (Elt F) → (⟨S4, .f32⟩ : BufTy).Contents (Elt F)),
    StableHlo.binary main_call4_v0 main_call4_call0_v5 main_call4_call0_v6 (addf : (⟨S4, .f32⟩ : BufTy).Contents (Elt F) → (⟨S4, .f32⟩ : BufTy).Contents (Elt F) → (⟨S4, .f32⟩ : BufTy).Contents (Elt F)),
    StableHlo.unary main_call4_call0_v3 main_call4_call0_v7 (Host.absf : (⟨S4, .f32⟩ : BufTy).Contents (Elt F) → (⟨S4, .f32⟩ : BufTy).Contents (Elt F)),
    StableHlo.unary main_call4_call0_v7 main_call4_call0_v8 (Host.negf : (⟨S4, .f32⟩ : BufTy).Contents (Elt F) → (⟨S4, .f32⟩ : BufTy).Contents (Elt F)),
    StableHlo.unary main_call4_call0_v8 main_call4_call0_v9 (Host.exp : (⟨S4, .f32⟩ : BufTy).Contents (Elt F) → (⟨S4, .f32⟩ : BufTy).Contents (Elt F)),
    StableHlo.unary main_call4_call0_v9 main_call4_call0_v10 (Host.log1p : (⟨S4, .f32⟩ : BufTy).Contents (Elt F) → (⟨S4, .f32⟩ : BufTy).Contents (Elt F)),
    StableHlo.binary main_call4_call0_v1 main_call4_call0_v10 main_call4_call0_v11 (addf : (⟨S4, .f32⟩ : BufTy).Contents (Elt F) → (⟨S4, .f32⟩ : BufTy).Contents (Elt F) → (⟨S4, .f32⟩ : BufTy).Contents (Elt F)),
    StableHlo.ternary main_call4_call0_v4 main_call4_call0_v6 main_call4_call0_v11 main_call4_v1 (select : (⟨S4, .i1⟩ : BufTy).Contents (Elt F) → (⟨S4, .f32⟩ : BufTy).Contents (Elt F) → (⟨S4, .f32⟩ : BufTy).Contents (Elt F) → (⟨S4, .f32⟩ : BufTy).Contents (Elt F)),
    StableHlo.unary main_call4_v1 main_v38 (Host.negf : (⟨S4, .f32⟩ : BufTy).Contents (Elt F) → (⟨S4, .f32⟩ : BufTy).Contents (Elt F)),
    StableHlo.nullary main_cst_7 (constant S_ .f32 0x00000000#32),
    StableHlo.unary main_cst_7 main_v39 (broadcastInDim S4 ![] bcast_S_S4 : (⟨S_, .f32⟩ : BufTy).Contents (Elt F) → (⟨S4, .f32⟩ : BufTy).Contents (Elt F)),
    StableHlo.binary main_v38 main_v39 main_v40 (mulf : (⟨S4, .f32⟩ : BufTy).Contents (Elt F) → (⟨S4, .f32⟩ : BufTy).Contents (Elt F) → (⟨S4, .f32⟩ : BufTy).Contents (Elt F)),
    StableHlo.binary main_v36 main_v40 main_v41 (subf : (⟨S4, .f32⟩ : BufTy).Contents (Elt F) → (⟨S4, .f32⟩ : BufTy).Contents (Elt F) → (⟨S4, .f32⟩ : BufTy).Contents (Elt F)),
    StableHlo.nullary main_cst_8 (constant S_ .f32 0x00000000#32),
    StableHlo.binary main_v41 main_cst_8 main_v42 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_9 (constant S_ .f32 0x40800000#32),
    StableHlo.binary main_v42 main_cst_9 main_v43 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x3F800000#32),
    StableHlo.binary main_cst_10 main_v27 main_v44 (mulf : (⟨S_, .f32⟩ : BufTy).Contents (Elt F) → (⟨S_, .f32⟩ : BufTy).Contents (Elt F) → (⟨S_, .f32⟩ : BufTy).Contents (Elt F)),
    StableHlo.binary main_v44 main_v43 main_v45 (addf : (⟨S_, .f32⟩ : BufTy).Contents (Elt F) → (⟨S_, .f32⟩ : BufTy).Contents (Elt F) → (⟨S_, .f32⟩ : BufTy).Contents (Elt F)) ]

abbrev ops : List (HloOp τ sig (Elt F)) := opsA ++ (opsB ++ opsC)

theorem cons_congr {α : Type} {a b : α} {l m : List α} (h : a = b) (t : l = m) : a :: l = b :: m := by subst h; subst t; rfl

set_option maxRecDepth 8192 in
theorem opsT_eq : (opsTA : List (HloOp τ sig (Elt F))) = opsA ∧ (opsTB : List (HloOp τ sig (Elt F))) = opsB
    ∧ (opsTC : List (HloOp τ sig (Elt F))) = opsC := by
  refine ⟨?_, ?_, ?_⟩ <;> repeat' first
    | apply cons_congr
    | exact TRef.nullary_plain _ _ _ HEq.rfl _
    | exact TRef.unary_plain _ _ _ _ HEq.rfl _ _
    | exact TRef.binary_plain _ _ _ _ _ HEq.rfl _ _ _
    | exact TRef.ternary_plain _ _ _ _ _ _ HEq.rfl _ _ _ _
    | exact TRef.reshape_plain _ _ _ _ _ _ _ _
    | rfl

set_option maxRecDepth 8192 in
set_option maxHeartbeats 1000000 in
theorem main_eq_typed (c : Dev nD) : main (F := F) c = seq (opsTA ++ (opsTB ++ opsTC)) := rfl

/-- @main is the sequence of its 126 operations. -/
theorem main_eq (c : Dev nD) : main (F := F) c = seq ops := by
  rw [main_eq_typed, opsT_eq.1, opsT_eq.2.1, opsT_eq.2.2]

theorem ops_sub : (ops : List (HloOp τ sig (Elt F))).Forall fun op => op.bufs ⊆ tcRefs τ sig := by
  (repeat' apply And.intro) <;> (try dsimp only [List.Forall]) <;> with_reducible first
    | exact nullary_bufs_sub .. | exact unary_bufs_sub .. | exact binary_bufs_sub .. | exact ternary_bufs_sub .. | exact reshape_bufs_sub ..

theorem ops_fresh : ∀ op ∈ (ops : List (HloOp τ sig (Elt F))), op.fresh = ∅ :=
  List.forall_iff_forall_mem.1 (by (repeat' apply And.intro) <;> rfl)

theorem scopedRefs_eq : (Finset.univ.filter fun b : Ref sig .tc => b.isScoped) = ∅ := by decide
theorem scopedSems_eq : (Finset.univ.filter fun sm : SemLoc sig => sm.isScoped .tc) = ∅ := by decide

theorem tfR : Cert.Spec.TailFacts where
  r1 := reducesTo_S8x512_S8_d1
  hS := h_S_
  lt := natLt_1_32
  sl0 := slices_S8_S4_0
  sl4 := slices_S8_S4_4
  sl00 := slices_S8x512_S4x512_0_0
  r01 := reducesTo_S4x512_S_d0_1
  bc4 := bcast_S_S4
  r0 := reducesTo_S4_S_d0

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

attribute [local irreducible] Host.reduce Host.reduceAdd Host.gather in
set_option maxRecDepth 8192 in
set_option maxHeartbeats 1000000 in
/-- After the first stretch the per-token buffer holds the reference's per-token values of the arguments. -/
theorem A_v12 (V : Valuation τ sig (Elt F)) :
    after opsA V (main_v12 : DevRef τ sig)
      = refPtl (V (main_arg0 : DevRef τ sig)) (V (main_arg1 : DevRef τ sig)) (V (main_arg2 : DevRef τ sig)) (V (main_arg3 : DevRef τ sig)) := by
  after_results_simp
  rfl

set_option maxRecDepth 8192 in
theorem A_v6 (V : Valuation τ sig (Elt F)) :
    after opsA V (main_v6 : DevRef τ sig) = refMask (V (main_arg2 : DevRef τ sig)) := by
  after_results_simp
  rfl

theorem A_arg0 (V : Valuation τ sig (Elt F)) :
    after opsA V (main_arg0 : DevRef τ sig) = V (main_arg0 : DevRef τ sig) := by
  after_results_simp

theorem A_arg1 (V : Valuation τ sig (Elt F)) :
    after opsA V (main_arg1 : DevRef τ sig) = V (main_arg1 : DevRef τ sig) := by
  after_results_simp

theorem A_arg2 (V : Valuation τ sig (Elt F)) :
    after opsA V (main_arg2 : DevRef τ sig) = V (main_arg2 : DevRef τ sig) := by
  after_results_simp

theorem A_arg3 (V : Valuation τ sig (Elt F)) :
    after opsA V (main_arg3 : DevRef τ sig) = V (main_arg3 : DevRef τ sig) := by
  after_results_simp

attribute [local irreducible] Host.reduce Host.reduceAdd in
set_option maxRecDepth 8192 in
set_option maxHeartbeats 2000000 in
/-- From any contents the other two stretches compute the shared chain of the per-token buffer and the mask buffer. -/
theorem BC_v45 (W : Valuation τ sig (Elt F)) :
    after (opsB ++ opsC) W (main_v45 : DevRef τ sig)
      = Cert.Spec.tail (F := F) tfR (W (main_v12 : DevRef τ sig)) (W (main_v6 : DevRef τ sig)) := by
  rw [after_app]
  after_results_simp
  rfl

theorem BC_arg0 (V : Valuation τ sig (Elt F)) :
    after (opsB ++ opsC) V (main_arg0 : DevRef τ sig) = V (main_arg0 : DevRef τ sig) := by
  rw [after_app]; after_results_simp

theorem BC_arg1 (V : Valuation τ sig (Elt F)) :
    after (opsB ++ opsC) V (main_arg1 : DevRef τ sig) = V (main_arg1 : DevRef τ sig) := by
  rw [after_app]; after_results_simp

theorem BC_arg2 (V : Valuation τ sig (Elt F)) :
    after (opsB ++ opsC) V (main_arg2 : DevRef τ sig) = V (main_arg2 : DevRef τ sig) := by
  rw [after_app]; after_results_simp

theorem BC_arg3 (V : Valuation τ sig (Elt F)) :
    after (opsB ++ opsC) V (main_arg3 : DevRef τ sig) = V (main_arg3 : DevRef τ sig) := by
  rw [after_app]; after_results_simp

theorem ops_v45 (V : Valuation τ sig (Elt F)) :
    after ops V (main_v45 : DevRef τ sig)
      = Cert.Spec.tail (F := F) tfR (refPtl (V (main_arg0 : DevRef τ sig)) (V (main_arg1 : DevRef τ sig)) (V (main_arg2 : DevRef τ sig)) (V (main_arg3 : DevRef τ sig))) (refMask (V (main_arg2 : DevRef τ sig))) := by
  show after (opsA ++ (opsB ++ opsC)) V _ = _
  rw [after_app, BC_v45, A_v12, A_v6]

theorem ops_arg0 (V : Valuation τ sig (Elt F)) :
    after ops V (main_arg0 : DevRef τ sig) = V (main_arg0 : DevRef τ sig) := by
  show after (opsA ++ (opsB ++ opsC)) V _ = _
  rw [after_app, BC_arg0, A_arg0]

theorem ops_arg1 (V : Valuation τ sig (Elt F)) :
    after ops V (main_arg1 : DevRef τ sig) = V (main_arg1 : DevRef τ sig) := by
  show after (opsA ++ (opsB ++ opsC)) V _ = _
  rw [after_app, BC_arg1, A_arg1]

theorem ops_arg2 (V : Valuation τ sig (Elt F)) :
    after ops V (main_arg2 : DevRef τ sig) = V (main_arg2 : DevRef τ sig) := by
  show after (opsA ++ (opsB ++ opsC)) V _ = _
  rw [after_app, BC_arg2, A_arg2]

theorem ops_arg3 (V : Valuation τ sig (Elt F)) :
    after ops V (main_arg3 : DevRef τ sig) = V (main_arg3 : DevRef τ sig) := by
  show after (opsA ++ (opsB ++ opsC)) V _ = _
  rw [after_app, BC_arg3, A_arg3]

/-- Every weakly fair execution of the reference terminates with the shared chain of the arguments' per-token values and mask, the arguments unchanged. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v45)
          = Cert.Spec.tail (F := F) tfR
              (refPtl (m ((c.tc : Thread nD τ).loc main_arg0)) (m ((c.tc : Thread nD τ).loc main_arg1)) (m ((c.tc : Thread nD τ).loc main_arg2)) (m ((c.tc : Thread nD τ).loc main_arg3)))
              (refMask (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v45).trans (ops_v45 _),
      (h c main_arg0).trans (ops_arg0 _), (h c main_arg1).trans (ops_arg1 _),
      (h c main_arg2).trans (ops_arg2 _), (h c main_arg3).trans (ops_arg3 _)⟩)
    (run_seq scopedRefs_eq scopedSems_eq defs main (fun _ => ops) main_eq (fun _ => ops_sub) m g (fun _ => ops_fresh))

theorem frame (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => (h c).2) (run m g)

end Cert.ReferenceIdeal.Hand

end
-- ==== Proof.RefRead.lean ====
import proofs.«419790_j22101901705594_3_alg».proof.Proof.RefStages
import proofs.«419790_j22101901705594_3_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section
namespace Cert.ReferenceIdeal.Hand
open Idealize.ShloMosaic Idealize.SL.Sem Idealize.ShloMosaic.ValueIdx
open Cert.ReferenceIdeal Cert.ReferenceIdeal.Facts₀
open scoped BigOperators
variable [Facts]

abbrev dotd : DotDims S8x512x2048 S32000x2048 S8x512x32000 := dot_S8x512x2048_S32000x2048_S8x512x32000_2_1_01_0_n_n

theorem val_v0_apply (W : FVec Ideal S32000x2048 .f32) (X : FVec Ideal S8x512x2048 .f32)
    (b : Fin 8) (t : Fin 512) (v : Fin 32000) :
    val_v0 W X (ix3 b t v) = ∑ h : Fin 2048, X (ix3 b t h) * W (ix2 v h) := by
  unfold val_v0
  show FloatOps.dotGeneral dotd none _ X W (ix3 b t v) = _
  rw [Ideal.dotGeneral_apply, ← Equiv.sum_comp (contrEquiv1 dotd 2048 rfl rfl).symm]
  refine Finset.sum_congr rfl fun c _ => ?_
  have c3 := contrEquiv1_symm_val dotd 2048 rfl rfl c
  have l3 : dotd.lhsIdx (ix3 b t v) ((contrEquiv1 dotd 2048 rfl rfl).symm c) = ix3 b t c := by
    funext ax; apply Fin.ext
    match ax with
    | ⟨0, _⟩ => rfl
    | ⟨1, _⟩ => rfl
    | ⟨2, _⟩ => exact c3
  have r3 : dotd.rhsIdx (ix3 b t v) ((contrEquiv1 dotd 2048 rfl rfl).symm c) = ix2 v c := by
    funext ax; apply Fin.ext
    match ax with
    | ⟨0, _⟩ => rfl
    | ⟨1, _⟩ => exact c3
  rw [l3, r3]

theorem val_v2_apply (bias : FVec Ideal S32000 .f32) (b : Fin 8) (t : Fin 512) (v : Fin 32000) :
    val_v2 bias (ix3 b t v) = bias (ix1 v) := by
  unfold val_v2 val_v1
  rw [broadcastInDim_apply _ _ _ (ix3 b t v) (ix3 (0 : Fin 1) (0 : Fin 1) v) (by
        intro a; match a with
        | ⟨0, _⟩ => rfl
        | ⟨1, _⟩ => rfl
        | ⟨2, _⟩ => rfl),
      broadcastInDim_apply _ _ _ (ix3 (0 : Fin 1) (0 : Fin 1) v) (ix1 v) (by
        intro a; match a with
        | ⟨0, _⟩ => rfl)]

theorem val_v3_apply (W : FVec Ideal S32000x2048 .f32) (X : FVec Ideal S8x512x2048 .f32)
    (bias : FVec Ideal S32000 .f32) (b : Fin 8) (t : Fin 512) (v : Fin 32000) :
    val_v3 W X bias (ix3 b t v) = Cert.Spec.logit W X bias b t v := by
  unfold val_v3 Cert.Spec.logit
  rw [addf_apply, val_v0_apply, val_v2_apply]

theorem red2 : S8x512x32000.Reduces [2] S8x512 := by decide

theorem red2_lift (b : Fin 8) (t : Fin 512) (k : Fin 32000) : red2.lift (ix2 b t) k = ix3 b t k := by
  funext a; apply Fin.ext
  match a with
  | ⟨0, _⟩ => rfl
  | ⟨1, _⟩ => rfl
  | ⟨2, _⟩ => rfl

theorem negInf_eq : Ideal.ofBits .f32 0xFF800000#32 = ⊥ := by simp [Ideal.ofBits, Ideal.ieee]

theorem ls_v0_apply (z : FVec Ideal S8x512x32000 .f32) (b : Fin 8) (t : Fin 512) :
    ls_v0 z (ix2 b t) = Cert.Spec.rowMax (fun v => z (ix3 b t v)) := by
  unfold ls_v0 Cert.Spec.rowMax
  rw [Host.reduce_eq_fold_single FloatOps.maximumf z _ reducesTo_S8x512x32000_S8x512_d2 red2 h_S_]
  have h0 : (constant S_ .f32 0xFF800000#32 : FVec Ideal S_ .f32) (Shape.Idx.first h_S_) = ⊥ := negInf_eq
  have hf : z ∘ red2.lift (ix2 b t) = fun v : Fin 32000 => z (ix3 b t v) := by
    funext k; exact congrArg z (red2_lift b t k)
  rw [h0]
  exact congrArg (fun f : Fin 32000 → EReal => Finset.fold max ⊥ f (Finset.univ : Finset (Fin 32000))) hf

theorem ls_v1_apply (j : S8x512.Idx) : ls_v1 (F := Ideal) j = ⊥ := by
  unfold ls_v1
  rw [broadcastInDim_scalar_apply, constant_apply]; exact negInf_eq

theorem ls_v2_apply (z : FVec Ideal S8x512x32000 .f32) (b : Fin 8) (t : Fin 512) :
    ls_v2 z (ix2 b t) = Cert.Spec.rowMax (fun v => z (ix3 b t v)) := by
  unfold ls_v2
  rw [maximumf_apply, ls_v1_apply, ls_v0_apply]; exact max_bot_left _

theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

theorem bcast_rows_apply {α : Type} (y : S8x512.Idx → α) (b : Fin 8) (t : Fin 512) (v : Fin 32000) :
    broadcastInDim S8x512x32000 ![0, 1, 2] bcast_S8x512x1_S8x512x32000_0_1_2
      (broadcastInDim S8x512x1 ![0, 1] bcast_S8x512_S8x512x1_0_1 y) (ix3 b t v) = y (ix2 b t) := by
  rw [broadcastInDim_apply _ _ _ (ix3 b t v) (ix3 b t (0 : Fin 1)) (by
        intro a; match a with
        | ⟨0, _⟩ => rfl
        | ⟨1, _⟩ => rfl
        | ⟨2, _⟩ => rfl),
      broadcastInDim_apply _ _ _ (ix3 b t (0 : Fin 1)) (ix2 b t) (by
        intro a; match a with
        | ⟨0, _⟩ => rfl
        | ⟨1, _⟩ => rfl)]

theorem ls_v5_apply (z : FVec Ideal S8x512x32000 .f32) (b : Fin 8) (t : Fin 512) (v : Fin 32000) :
    ls_v5 z (ix3 b t v) = z (ix3 b t v) - Cert.Spec.rowMax (fun v => z (ix3 b t v)) := by
  unfold ls_v5
  rw [subf_apply]
  unfold ls_v4 ls_v3
  rw [bcast_rows_apply, ls_v2_apply]

theorem ls_v7_apply (z : FVec Ideal S8x512x32000 .f32) (b : Fin 8) (t : Fin 512) :
    ls_v7 z (ix2 b t) = Cert.Spec.rowZ (fun v => z (ix3 b t v)) := by
  unfold ls_v7
  rw [hostReduceAdd_apply, Ideal.hostReduceAdd_single reducesTo_S8x512x32000_S8x512_d2 red2, constant_apply,
    Ideal.ofBits_zero_f32, zero_add]
  unfold Cert.Spec.rowZ
  have hk : ∀ k : Fin 32000, ls_v6 z (red2.lift (ix2 b t) k)
      = Ideal.exp (z (ix3 b t k) - Cert.Spec.rowMax (fun v => z (ix3 b t v))) := by
    intro k
    rw [red2_lift]
    unfold ls_v6
    rw [hostExp_apply, ls_v5_apply]
  exact Finset.sum_congr rfl (fun k _ => hk k)

theorem ls_v10_apply (z : FVec Ideal S8x512x32000 .f32) (b : Fin 8) (t : Fin 512) (v : Fin 32000) :
    ls_v10 z (ix3 b t v) = Ideal.log (Cert.Spec.rowZ (fun v => z (ix3 b t v))) := by
  unfold ls_v10
  rw [broadcastInDim_apply _ _ _ (ix3 b t v) (ix3 b t (0 : Fin 1)) (by
        intro a; match a with
        | ⟨0, _⟩ => rfl
        | ⟨1, _⟩ => rfl
        | ⟨2, _⟩ => rfl)]
  unfold ls_v9
  rw [hostLog_apply]
  unfold ls_v8
  rw [broadcastInDim_apply _ _ _ (ix3 b t (0 : Fin 1)) (ix2 b t) (by
        intro a; match a with
        | ⟨0, _⟩ => rfl
        | ⟨1, _⟩ => rfl), ls_v7_apply]

theorem ls_v11_apply (z : FVec Ideal S8x512x32000 .f32) (b : Fin 8) (t : Fin 512) (v : Fin 32000) :
    ls_v11 z (ix3 b t v)
      = (z (ix3 b t v) - Cert.Spec.rowMax (fun v => z (ix3 b t v))) - Ideal.log (Cert.Spec.rowZ (fun v => z (ix3 b t v))) := by
  unfold ls_v11
  rw [subf_apply, ls_v5_apply, ls_v10_apply]

theorem val_v4_apply (W : FVec Ideal S32000x2048 .f32) (X : FVec Ideal S8x512x2048 .f32)
    (bias : FVec Ideal S32000 .f32) (b : Fin 8) (t : Fin 512) (v : Fin 32000) :
    val_v4 W X bias (ix3 b t v)
      = (Cert.Spec.logit W X bias b t v - Cert.Spec.rowMax (Cert.Spec.logit W X bias b t))
        - Ideal.log (Cert.Spec.rowZ (Cert.Spec.logit W X bias b t)) := by
  unfold val_v4
  rw [ls_v11_apply]
  have hz : (fun v => val_v3 W X bias (ix3 b t v)) = Cert.Spec.logit W X bias b t := by
    funext u; exact val_v3_apply W X bias b t u
  rw [hz, val_v3_apply]

theorem cmpi_apply' {s : Shape} {w : Nat} (p : CmpIPredicate) (x y : IVec s w) (i : s.Idx) :
    cmpi p x y i = IntOp.cmpi p (x i) (y i) := rfl
theorem andi_apply' {s : Shape} {w : Nat} (x y : IVec s w) (i : s.Idx) : andi x y i = IntOp.andi (x i) (y i) := rfl
theorem constantI_apply' {s : Shape} {w : Nat} (c : BitVec w) (i : s.Idx) : constantI s w c i = c := rfl
theorem uitofp_apply' {s : Shape} {w : Nat} (x : IVec s w) (i : s.Idx) :
    (uitofp .f32 x : FVec Ideal s .f32) i = (((x i).toNat : ℝ) : EReal) := rfl

theorem val_v6_apply (tgt : IVec S8x512 32) (j : S8x512.Idx) :
    val_v6 tgt j = if tgt j = Cert.Spec.ignoreWord then 0#1 else 1#1 := by
  unfold val_v6
  rw [cmpi_apply', broadcastInDim_scalar_apply, constantI_apply']
  show BitVec.ofBool (tgt j != 4294967196#32) = _
  by_cases h : tgt j = Cert.Spec.ignoreWord
  · rw [if_pos h, h]; decide
  · rw [if_neg h, show (tgt j != 4294967196#32) = true from bne_iff_ne.mpr h]; rfl

theorem val_v7_apply (tgt : IVec S8x512 32) (b : Fin 8) (t : Fin 512) :
    val_v7 tgt (ix2 b t) = Cert.Spec.label tgt b t := by
  unfold val_v7 Cert.Spec.label
  rw [select_apply, val_v6_apply, broadcastInDim_scalar_apply]
  by_cases h : tgt (ix2 b t) = Cert.Spec.ignoreWord
  · rw [if_pos h, if_pos h, select_zero]; rfl
  · rw [if_neg h, if_neg h, select_one]

theorem val_v8_apply (tgt : IVec S8x512 32) (b : Fin 8) (t : Fin 512) :
    val_v8 tgt (ix3 b t (0 : Fin 1)) = Cert.Spec.label tgt b t := by
  unfold val_v8
  rw [broadcastInDim_apply _ _ _ (ix3 b t (0 : Fin 1)) (ix2 b t) (by
        intro a; match a with
        | ⟨0, _⟩ => rfl
        | ⟨1, _⟩ => rfl), val_v7_apply]

theorem label_lt (tgt : IVec S8x512 32) (b : Fin 8) (t : Fin 512)
    (ht : tgt (ix2 b t) = Cert.Spec.ignoreWord ∨ (tgt (ix2 b t)).toNat < 32000) :
    (Cert.Spec.label tgt b t).toNat < 32000 := by
  unfold Cert.Spec.label
  by_cases h : tgt (ix2 b t) = Cert.Spec.ignoreWord
  · rw [if_pos h]; decide
  · rw [if_neg h]; exact ht.resolve_left h

theorem val_v11_apply (tgt : IVec S8x512 32) (b : Fin 8) (t : Fin 512) :
    val_v11 (F := Ideal) tgt (ix2 b t) = Cert.Spec.maskf tgt b t := by
  unfold val_v11 Cert.Spec.maskf
  rw [uitofp_apply', val_v6_apply]
  by_cases h : tgt (ix2 b t) = Cert.Spec.ignoreWord
  · rw [if_pos h, if_pos h]; simp
  · rw [if_neg h, if_neg h]; simp

theorem toInt_of_lt (L : BitVec 32) (h : L.toNat < 32000) : L.toInt = (L.toNat : Int) :=
  BitVec.toInt_eq_toNat_of_lt (by omega)

theorem cmp_slt_zero (L : BitVec 32) (h : L.toNat < 32000) : IntOp.cmpi .slt L 0#32 = 0#1 := by
  have h0 : (0#32 : BitVec 32).toInt = 0 := by decide
  have hs : L.slt 0#32 = false := by
    unfold BitVec.slt
    rw [toInt_of_lt L h, h0]
    exact decide_eq_false (by omega)
  show BitVec.ofBool (L.slt 0#32) = 0#1
  rw [hs]; rfl

theorem cmp_sge_zero (L : BitVec 32) (h : L.toNat < 32000) : IntOp.cmpi .sge L 0#32 = 1#1 := by
  have h0 : (0#32 : BitVec 32).toInt = 0 := by decide
  have hs : (0#32 : BitVec 32).sle L = true := by
    unfold BitVec.sle
    rw [toInt_of_lt L h, h0]
    exact decide_eq_true (by omega)
  show BitVec.ofBool ((0#32 : BitVec 32).sle L) = 1#1
  rw [hs]; rfl

theorem cmp_sle_last (L : BitVec 32) (h : L.toNat < 32000) : IntOp.cmpi .sle L 31999#32 = 1#1 := by
  have h0 : (31999#32 : BitVec 32).toInt = 31999 := by decide
  have hs : L.sle 31999#32 = true := by
    unfold BitVec.sle
    rw [toInt_of_lt L h, h0]
    exact decide_eq_true (by omega)
  show BitVec.ofBool (L.sle 31999#32) = 1#1
  rw [hs]; rfl

abbrev gd : GatherDims S8x512x32000 S8x512x1x1 S8x512x1 := gather_S8x512x32000_S8x512x1x1_S8x512x1_n_2_01_01_2_3_111

theorem gd_siIdx (b : Fin 8) (t : Fin 512) (c : Fin gd.startIndexMap.length) :
    gd.siIdx (ix3 b t (0 : Fin 1)) c = ix4 b t (0 : Fin 1) (0 : Fin 1) := by
  funext a
  match a with
  | ⟨0, _⟩ => rfl
  | ⟨1, _⟩ => rfl
  | ⟨2, _⟩ => rfl
  | ⟨3, _⟩ =>
    apply Fin.ext
    show c.val = 0
    have := c.isLt
    have h1 : gd.startIndexMap.length = 1 := rfl
    omega

/-- The gather at (b, t, 0) reads row (b, t) at its index, a negative index counting from the end. -/
theorem gather_read {α : Type} (x : S8x512x32000.Idx → α) (idx : IVec S8x512x1x1 32) (b : Fin 8) (t : Fin 512)
    (c : Fin 32000) (hc : c.val = min (idx (ix4 b t (0 : Fin 1) (0 : Fin 1))).toInt.toNat 31999) :
    Host.gather gather_S8x512x32000_S8x512x1x1_S8x512x1_n_2_01_01_2_3_111 x idx (ix3 b t (0 : Fin 1))
      = x (ix3 b t c) := by
  unfold Host.gather
  congr 1
  funext a
  apply Fin.ext
  match a with
  | ⟨0, _⟩ => show 0 + b.val + 0 = b.val; omega
  | ⟨1, _⟩ => show 0 + t.val + 0 = t.val; omega
  | ⟨2, _⟩ =>
    show min (idx (gd.siIdx (ix3 b t (0 : Fin 1)) ⟨0, Nat.one_pos⟩)).toInt.toNat 31999 + 0 + 0 = c.val
    rw [gd_siIdx, hc]; rfl

variable (idx : IVec S8x512x1 32) (b : Fin 8) (t : Fin 512) (L : BitVec 32)

theorem ta_v4_apply (hL : idx (ix3 b t (0 : Fin 1)) = L) (h : L.toNat < 32000) :
    ta_v4 idx (ix3 b t (0 : Fin 1)) = L := by
  unfold ta_v4
  rw [select_apply]
  unfold ta_v1
  rw [cmpi_apply']
  unfold ta_v0
  rw [broadcastInDim_scalar_apply, constantI_apply', hL, cmp_slt_zero L h, select_zero]

theorem ta_v5_apply (hL : idx (ix3 b t (0 : Fin 1)) = L) (h : L.toNat < 32000) :
    ta_v5 idx (ix4 b t (0 : Fin 1) (0 : Fin 1)) = L := by
  unfold ta_v5
  rw [shapeCast_apply _ _ (ix4 b t (0 : Fin 1) (0 : Fin 1)) (ix3 b t (0 : Fin 1)) (by
        rw [Shape.rowMajor_val_three, Shape.rowMajor_val_four]
        show (b.val * 512 + t.val) * 1 + 0 = ((b.val * 512 + t.val) * 1 + 0) * 1 + 0
        omega),
    ta_v4_apply idx b t L hL h]

theorem ta_v11_apply (hL : idx (ix3 b t (0 : Fin 1)) = L) (h : L.toNat < 32000) :
    ta_v11 idx (ix4 b t (0 : Fin 1) (0 : Fin 1)) = 1#1 := by
  unfold ta_v11
  rw [andi_apply']
  unfold ta_v7 ta_v10
  rw [cmpi_apply', cmpi_apply', ta_v5_apply idx b t L hL h]
  unfold ta_v6 ta_v9
  rw [broadcastInDim_scalar_apply, constantI_apply',
    broadcastInDim_apply _ _ _ (ix4 b t (0 : Fin 1) (0 : Fin 1)) (ix4 (0 : Fin 1) (0 : Fin 1) (0 : Fin 1) (0 : Fin 1)) (by
        intro a; match a with
        | ⟨0, _⟩ => rfl
        | ⟨1, _⟩ => rfl
        | ⟨2, _⟩ => rfl
        | ⟨3, _⟩ => rfl)]
  unfold ta_v8
  rw [broadcastInDim_apply _ _ _ (ix4 (0 : Fin 1) (0 : Fin 1) (0 : Fin 1) (0 : Fin 1)) (ix1 (0 : Fin 1)) (by
        intro a; match a with
        | ⟨0, _⟩ => rfl),
    constantI_apply', cmp_sge_zero L h, cmp_sle_last L h]
  decide

theorem red3 : S8x512x1x1.Reduces [3] S8x512x1 := by decide

theorem red3_lift (k : Fin 1) : red3.lift (ix3 b t (0 : Fin 1)) k = ix4 b t (0 : Fin 1) (0 : Fin 1) := by
  funext a; apply Fin.ext
  match a with
  | ⟨0, _⟩ => rfl
  | ⟨1, _⟩ => rfl
  | ⟨2, _⟩ => rfl
  | ⟨3, _⟩ => show k.val = 0; omega

theorem fold_and_one : (Finset.univ : Finset (Fin 1)).fold IntOp.andi (1#1 : BitVec 1) (fun _ => (1#1 : BitVec 1)) = 1#1 := by
  decide

theorem ta_v12_apply (hL : idx (ix3 b t (0 : Fin 1)) = L) (h : L.toNat < 32000) :
    ta_v12 idx (ix3 b t (0 : Fin 1)) = 1#1 := by
  unfold ta_v12
  rw [Host.reduce_eq_fold_single IntOp.andi _ _ reducesTo_S8x512x1x1_S8x512x1_d3 red3 h_S_, constantI_apply']
  have hf : ta_v11 idx ∘ red3.lift (ix3 b t (0 : Fin 1)) = fun _ : Fin 1 => (1#1 : BitVec 1) := by
    funext k
    exact (congrArg (ta_v11 idx) (red3_lift b t k)).trans (ta_v11_apply idx b t L hL h)
  rw [hf]
  exact fold_and_one

theorem ta_v15_apply (x : FVec Ideal S8x512x32000 .f32) (hL : idx (ix3 b t (0 : Fin 1)) = L) (h : L.toNat < 32000) :
    ta_v15 x idx (ix3 b t (0 : Fin 1)) = x (ix3 b t ⟨L.toNat % 32000, Nat.mod_lt _ (by decide)⟩) := by
  unfold ta_v15
  rw [select_apply, ta_v12_apply idx b t L hL h, select_one]
  unfold ta_v13
  exact gather_read x (ta_v5 idx) b t ⟨L.toNat % 32000, Nat.mod_lt _ (by decide)⟩ (by
    rw [ta_v5_apply idx b t L hL h, toInt_of_lt L h, Int.toNat_natCast]
    show L.toNat % 32000 = min L.toNat 31999
    omega)

/-- The reference's mask is the specification's. -/
theorem refMask_eq (tgt : IVec Cert.Spec.ST 32) : refMask tgt = Cert.Spec.maskBits tgt := by
  funext j
  unfold refMask Cert.Spec.maskBits
  exact val_v6_apply tgt j

theorem val_v10_apply (W : FVec Ideal S32000x2048 .f32) (X : FVec Ideal S8x512x2048 .f32) (tgt : IVec S8x512 32)
    (bias : FVec Ideal S32000 .f32) (b : Fin 8) (t : Fin 512)
    (ht : tgt (ix2 b t) = Cert.Spec.ignoreWord ∨ (tgt (ix2 b t)).toNat < 32000) :
    val_v10 W X tgt bias (ix2 b t)
      = (Cert.Spec.logit W X bias b t (Cert.Spec.labelIdx tgt b t) - Cert.Spec.rowMax (Cert.Spec.logit W X bias b t))
        - Ideal.log (Cert.Spec.rowZ (Cert.Spec.logit W X bias b t)) := by
  unfold val_v10
  rw [shapeCast_apply _ _ (ix2 b t) (ix3 b t (0 : Fin 1)) (by
        rw [Shape.rowMajor_val_three, Shape.rowMajor_val_two]
        show (b.val * 512 + t.val) * 1 + 0 = b.val * 512 + t.val
        omega)]
  unfold val_v9
  rw [ta_v15_apply (val_v8 tgt) b t (Cert.Spec.label tgt b t) (val_v4 W X bias) (val_v8_apply tgt b t)
    (label_lt tgt b t ht)]
  exact val_v4_apply W X bias b t (Cert.Spec.labelIdx tgt b t)

/-- The reference's per-token values are the specification's when every target is the ignore value or a vocabulary entry. -/
theorem refPtl_eq (W : FVec Ideal Cert.Spec.SW .f32) (X : FVec Ideal Cert.Spec.SX .f32) (tgt : IVec Cert.Spec.ST 32)
    (bias : FVec Ideal Cert.Spec.SB .f32)
    (ht : ∀ i, tgt i = Cert.Spec.ignoreWord ∨ (tgt i).toNat < 32000) :
    refPtl (F := Ideal) W X tgt bias = Cert.Spec.ptl W X tgt bias := by
  funext i
  obtain ⟨b, t, rfl⟩ : ∃ (b : Fin 8) (t : Fin 512), i = ix2 b t := ⟨i 0, i 1, eq_ix2 i⟩
  unfold refPtl
  rw [mulf_apply, val_v10_apply W X tgt bias b t (ht _), val_v11_apply]
  rfl

end Cert.ReferenceIdeal.Hand
-- ==== Proof.PreFacts.lean ====
import proofs.«419790_j22101901705594_3_alg».proof.Pre_finite_inputs
import proofs.«419790_j22101901705594_3_alg».proof.Proof.Gen.Pre_finite_inputs
import proofs.«419790_j22101901705594_3_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx
open Cert.Pre_finite_inputs

instance subsingleton_scalar_idx : Subsingleton S_.Idx := ⟨fun a b => funext fun d => d.elim0⟩

theorem ofBits_inf : Ideal.ofBits .f32 0x7F800000#32 = (⊤ : EReal) := by simp [Ideal.ofBits, Ideal.ieee]

/-- An extended real with |x| < +∞ is a real number. -/
theorem real_of_abs_lt_top (x : EReal) (h : max x (-x) < ⊤) : ∃ r : ℝ, x = (r : EReal) := by
  rw [max_lt_iff] at h
  induction x using EReal.rec with
  | bot => exact absurd h.2 (by simp)
  | top => exact absurd h.1 (by simp)
  | coe r => exact ⟨r, rfl⟩

theorem real_of_test (x : Ideal .f32)
    (h : FloatOps.cmpf (F := Ideal) .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  rw [StableHlo.Predicate.ofBool_eq_one_iff] at h'
  exact real_of_abs_lt_top x (by simpa using h')

theorem toNat_lt_of_signed (w : BitVec 32) (h0 : IntOp.cmpi .sge w 0#32 = 1#1) (h1 : IntOp.cmpi .slt w 32000#32 = 1#1) :
    w.toNat < 32000 := by
  rw [IntOp.cmpi_sge] at h0
  rw [IntOp.cmpi_slt] at h1
  have e0 : (0#32 : BitVec 32).toInt = 0 := by decide
  have e1 : (32000#32 : BitVec 32).toInt = 32000 := by decide
  rw [e0] at h0
  rw [e1] at h1
  have h32 := w.isLt
  rw [BitVec.toInt_eq_toNat_cond] at h0 h1
  split at h0 <;> omega

variable (W : FVec Ideal Cert.Spec.SW .f32) (X : FVec Ideal Cert.Spec.SX .f32) (tgt : IVec Cert.Spec.ST 32)
  (bias : FVec Ideal Cert.Spec.SB .f32)

/-- The precondition, conjunct by conjunct. -/
theorem split (h : Cert.Pre_finite_inputs.fn (F := Ideal) W X tgt bias = fun _ => 1#1) :
    (((Host.reduce IntOp.andi
          (cmpf .olt (Host.absf W) (broadcastInDim S32000x2048 ![] Facts.bcast_S_S32000x2048 (constant (F := Ideal) S_ .f32 0x7F800000#32)))
          (constantI S_ 1 1#1) Facts.reducesTo_S32000x2048_S_d0_1 Facts.h_S_ ix0 = 1#1
      ∧ Host.reduce IntOp.andi
          (cmpf .olt (Host.absf X) (broadcastInDim S8x512x2048 ![] Facts.bcast_S_S8x512x2048 (constant (F := Ideal) S_ .f32 0x7F800000#32)))
          (constantI S_ 1 1#1) Facts.reducesTo_S8x512x2048_S_d0_1_2 Facts.h_S_ ix0 = 1#1)
      ∧ Host.reduce IntOp.andi
          (cmpf .olt (Host.absf bias) (broadcastInDim S32000 ![] Facts.bcast_S_S32000 (constant (F := Ideal) S_ .f32 0x7F800000#32)))
          (constantI S_ 1 1#1) Facts.reducesTo_S32000_S_d0 Facts.h_S_ ix0 = 1#1)
      ∧ Host.reduce IntOp.andi
          (ori (cmpi .eq tgt (broadcastInDim S8x512 ![] Facts.bcast_S_S8x512 (constantI S_ 32 4294967196#32)))
            (andi (cmpi .sge tgt (broadcastInDim S8x512 ![] Facts.bcast_S_S8x512 (constantI S_ 32 0#32)))
              (cmpi .slt tgt (broadcastInDim S8x512 ![] Facts.bcast_S_S8x512 (constantI S_ 32 32000#32)))))
          (constantI S_ 1 1#1) Facts.reducesTo_S8x512_S_d0_1 Facts.h_S_ ix0 = 1#1) := by
  have e := congrFun h ix0
  dsimp only [Cert.Pre_finite_inputs.fn, Cert.Pre_finite_inputs.fn_part1] at e
  unfold andi at e
  simp only [IntOp.andi_eq_one] at e
  exact e

/-- Finite inputs are real numbers, entry by entry. -/
theorem real_W (h : Cert.Pre_finite_inputs.fn (F := Ideal) W X tgt bias = fun _ => 1#1) :
    ∀ i, ∃ r : ℝ, W i = (r : EReal) := fun i =>
  real_of_test (W i) (Host.reduce_andi_all _ _ _ _ _ (split W X tgt bias h).1.1.1 i)

theorem real_X (h : Cert.Pre_finite_inputs.fn (F := Ideal) W X tgt bias = fun _ => 1#1) :
    ∀ i, ∃ r : ℝ, X i = (r : EReal) := fun i =>
  real_of_test (X i) (Host.reduce_andi_all _ _ _ _ _ (split W X tgt bias h).1.1.2 i)

theorem real_bias (h : Cert.Pre_finite_inputs.fn (F := Ideal) W X tgt bias = fun _ => 1#1) :
    ∀ i, ∃ r : ℝ, bias i = (r : EReal) := fun i =>
  real_of_test (bias i) (Host.reduce_andi_all _ _ _ _ _ (split W X tgt bias h).1.2 i)

/-- Each target is the ignore value or a vocabulary entry. -/
theorem target_range (h : Cert.Pre_finite_inputs.fn (F := Ideal) W X tgt bias = fun _ => 1#1) :
    ∀ i, tgt i = Cert.Spec.ignoreWord ∨ (tgt i).toNat < 32000 := fun i => by
  have e := Host.reduce_andi_all _ _ _ _ _ (split W X tgt bias h).2 i
  have e' : IntOp.ori (IntOp.cmpi .eq (tgt i) 4294967196#32)
      (IntOp.andi (IntOp.cmpi .sge (tgt i) 0#32) (IntOp.cmpi .slt (tgt i) 32000#32)) = 1#1 := e
  rw [IntOp.ori_eq_one, IntOp.andi_eq_one, IntOp.cmpi_eq] at e'
  rcases e' with e' | ⟨h0, h1⟩
  · exact Or.inl e'
  · exact Or.inr (toNat_lt_of_signed _ h0 h1)

end Cert.PreFacts

end
-- ==== Proof.lean ====
import proofs.«419790_j22101901705594_3_alg».proof.Defs
import proofs.«419790_j22101901705594_3_alg».proof.Proof.Gen.Kernel
import proofs.«419790_j22101901705594_3_alg».proof.Proof.Gen.KernelIdeal
import proofs.«419790_j22101901705594_3_alg».proof.Proof.Gen.ReferenceIdeal
import proofs.«419790_j22101901705594_3_alg».proof.Proof.Gen.Pre_finite_inputs
import proofs.«419790_j22101901705594_3_alg».proof.Proof.KFrame
import proofs.«419790_j22101901705594_3_alg».proof.Proof.KIRun
import proofs.«419790_j22101901705594_3_alg».proof.Proof.RefRun
import proofs.«419790_j22101901705594_3_alg».proof.Proof.RefRead
import proofs.«419790_j22101901705594_3_alg».proof.Proof.PreFacts

noncomputable section

namespace Cert.Proof

open Idealize.ShloMosaic Idealize.ShloMosaic.TcCoe Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_reference : Cert.frame_ReferenceIdeal := fun m ρ _ => Cert.ReferenceIdeal.Hand.frame m ρ

/-- Both idealized programs end at the specification's value of the arguments. -/
theorem algebraic : Cert.algebraic_KernelIdeal_ReferenceIdeal := by
  intro m g m' g' hpre hagree
  have hW := fun c => Cert.PreFacts.real_W _ _ _ _ (hpre c)
  have hX := fun c => Cert.PreFacts.real_X _ _ _ _ (hpre c)
  have hb := fun c => Cert.PreFacts.real_bias _ _ _ _ (hpre c)
  have ht := fun c => Cert.PreFacts.target_range _ _ _ _ (hpre c)
  refine ⟨_, Cert.KernelIdeal.Val.run m g hW hX hb ht, ?_⟩
  refine (θ_run Cert.ReferenceIdeal.defs _ _).mono (fun _ h c => ⟨(h c).1.trans ?_, (h c).2⟩)
    (Cert.ReferenceIdeal.Hand.run m' g')
  rw [(hagree c).1, (hagree c).2.1, (hagree c).2.2.1, (hagree c).2.2.2]
  rw [Cert.ReferenceIdeal.Hand.refPtl_eq _ _ _ _ (ht c), Cert.ReferenceIdeal.Hand.refMask_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
